-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 4096]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 512, 4096]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x128 : Shape := ⟨2, ![4, 128]⟩
abbrev S128x256 : Shape := ⟨2, ![128, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S4x512x256 .f32) (main_arg1 : FVec F S4x128 .f32) (main_arg2 : FVec F S128x256 .f32) (main_arg3 : FVec F S128x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Pre_finite_inputs_ReferenceIdeal.lean ====
abbrev S4x512x4096 : Shape := ⟨3, ![4, 512, 4096]⟩
abbrev S4x128 : Shape := ⟨2, ![4, 128]⟩
abbrev S128x4096 : Shape := ⟨2, ![128, 4096]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_v13 : IVec S_ 1) (main_v16 : IVec S128x4096 1) : IVec S_ 1 :=
  let main_c_5 : IVec S_ 1 := constantI S_ 1 1#1
  let main_v17 : IVec S_ 1 := (fun x v => Host.reduce IntOp.andi x v reducesTo_S128x4096_S_d0_1 h_S_) main_v16 main_c_5
  let main_v18 : IVec S_ 1 := andi main_v13 main_v17
  main_v18

def fn {F : FTy → Type} [FloatOps F] (main_arg0 : FVec F S4x512x4096 .f32) (main_arg1 : FVec F S4x128 .f32) (main_arg2 : FVec F S128x4096 .f32) (main_arg3 : FVec F S128x4096 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S128x4096 .f32 := Host.absf main_arg3
  let main_cst_4 : FVec F S_ .f32 := constant S_ .f32 0x7F800000#32
  let main_v15 : FVec F S128x4096 .f32 := broadcastInDim S128x4096 ![] bcast_S_S128x4096 main_cst_4
  let main_v16 : IVec S128x4096 1 := cmpf .olt main_v14 main_v15
  fn_part1 (F := F) main_v13 main_v16
-- ==== Kernel.lean ====
abbrev S4x512x256 : Shape := ⟨3, ![4, 512, 256]⟩
abbrev S4x128 : Shape := ⟨2, ![4, 128]⟩
abbrev S128x256 : Shape := ⟨2, ![128, 256]⟩
abbrev S16x8x512 : Shape := ⟨3, ![16, 8, 512]⟩
abbrev S15 : Shape := ⟨1, ![15]⟩
abbrev S_ : Shape := ⟨0, ![]⟩
abbrev S4x512 : Shape := ⟨2, ![4, 512]⟩
abbrev S1x4x512 : Shape := ⟨3, ![1, 4, 512]⟩
abbrev S4x256 : Shape := ⟨2, ![4, 256]⟩
abbrev S1 : Shape := ⟨1, ![1]⟩
abbrev S1x8x512 : Shape := ⟨3, ![1, 8, 512]⟩
abbrev S8x512 : Shape := ⟨2, ![8, 512]⟩
abbrev S4x512x1 : Shape := ⟨3, ![4, 512, 1]⟩
abbrev S4x1x256 : Shape := ⟨3, ![4, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x512x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x512x256, .bf16⟩
  | .local _ .vmem, ⟨0, _⟩ => ⟨S4x512x256, .f32⟩
  | .local _ .vmem, ⟨1, _⟩ => ⟨S4x128, .f32⟩
  | .local _ .vmem, ⟨2, _⟩ => ⟨S128x256, .f32⟩
  | .local _ .vmem, ⟨3, _⟩ => ⟨S128x256, .f32⟩
  | .local _ .vmem, ⟨4, _⟩ => ⟨S4x512x256, .bf16⟩
  | .local _ .vmem, ⟨5, _⟩ => ⟨S16x8x512, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_155 : BitVec 32 := 1#32
  let v225 : BitVec 32 := Scalar.addi v2 c1_i32_155
  let c16_i32_156 : BitVec 32 := 16#32
  let c0_i32_157 : BitVec 32 := 0#32
  let v226 : BitVec 1 := Scalar.cmpi .eq c16_i32_156 c0_i32_157
  let c1_i32_158 : BitVec 32 := 1#32
  let v227 : BitVec 32 := Scalar.select v226 c1_i32_158 c16_i32_156
  let v228 : BitVec 32 := Scalar.remsi v225 v227
  let c0_i32_160 : BitVec 32 := 0#32
  let v230 : BitVec 1 := Scalar.cmpi .slt v228 c0_i32_160
  let c0_i32_161 : BitVec 32 := 0#32
  let v231 : BitVec 1 := Scalar.cmpi .slt v227 c0_i32_161
  let v232 : BitVec 1 := Scalar.xori v230 v231
  let c0_i32_159 : BitVec 32 := 0#32
  let v229 : BitVec 1 := Scalar.cmpi .ne v228 c0_i32_159
  let v233 : BitVec 1 := Scalar.andi v232 v229
  let v234 : BitVec 32 := Scalar.addi v228 v227
  let v235 : BitVec 32 := Scalar.select v233 v234 v228
  let c1_i32_166 : BitVec 32 := 1#32
  let v236 : BitVec 32 := Scalar.muli v235 c1_i32_166
  let v237 : BitVec 32 := Scalar.addi c0_i32_167 v236
  v237.toNat
def k0_dev17 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_172 : BitVec 32 := 2#32
  let v246 : BitVec 32 := Scalar.addi v2 c2_i32_172
  let c16_i32_173 : BitVec 32 := 16#32
  let c0_i32_174 : BitVec 32 := 0#32
  let v247 : BitVec 1 := Scalar.cmpi .eq c16_i32_173 c0_i32_174
  let c1_i32_175 : BitVec 32 := 1#32
  let v248 : BitVec 32 := Scalar.select v247 c1_i32_175 c16_i32_173
  let v249 : BitVec 32 := Scalar.remsi v246 v248
  let c0_i32_177 : BitVec 32 := 0#32
  let v251 : BitVec 1 := Scalar.cmpi .slt v249 c0_i32_177
  let c0_i32_178 : BitVec 32 := 0#32
  let v252 : BitVec 1 := Scalar.cmpi .slt v248 c0_i32_178
  let v253 : BitVec 1 := Scalar.xori v251 v252
  let c0_i32_176 : BitVec 32 := 0#32
  let v250 : BitVec 1 := Scalar.cmpi .ne v249 c0_i32_176
  let v254 : BitVec 1 := Scalar.andi v253 v250
  let v255 : BitVec 32 := Scalar.addi v249 v248
  let v256 : BitVec 32 := Scalar.select v254 v255 v249
  let c1_i32_183 : BitVec 32 := 1#32
  let v257 : BitVec 32 := Scalar.muli v256 c1_i32_183
  let v258 : BitVec 32 := Scalar.addi c0_i32_184 v257
  v258.toNat
def k0_dev18 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_189 : BitVec 32 := 3#32
  let v267 : BitVec 32 := Scalar.addi v2 c3_i32_189
  let c16_i32_190 : BitVec 32 := 16#32
  let c0_i32_191 : BitVec 32 := 0#32
  let v268 : BitVec 1 := Scalar.cmpi .eq c16_i32_190 c0_i32_191
  let c1_i32_192 : BitVec 32 := 1#32
  let v269 : BitVec 32 := Scalar.select v268 c1_i32_192 c16_i32_190
  let v270 : BitVec 32 := Scalar.remsi v267 v269
  let c0_i32_194 : BitVec 32 := 0#32
  let v272 : BitVec 1 := Scalar.cmpi .slt v270 c0_i32_194
  let c0_i32_195 : BitVec 32 := 0#32
  let v273 : BitVec 1 := Scalar.cmpi .slt v269 c0_i32_195
  let v274 : BitVec 1 := Scalar.xori v272 v273
  let c0_i32_193 : BitVec 32 := 0#32
  let v271 : BitVec 1 := Scalar.cmpi .ne v270 c0_i32_193
  let v275 : BitVec 1 := Scalar.andi v274 v271
  let v276 : BitVec 32 := Scalar.addi v270 v269
  let v277 : BitVec 32 := Scalar.select v275 v276 v270
  let c1_i32_200 : BitVec 32 := 1#32
  let v278 : BitVec 32 := Scalar.muli v277 c1_i32_200
  let v279 : BitVec 32 := Scalar.addi c0_i32_201 v278
  v279.toNat
def k0_dev19 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_206 : BitVec 32 := 4#32
  let v288 : BitVec 32 := Scalar.addi v2 c4_i32_206
  let c16_i32_207 : BitVec 32 := 16#32
  let c0_i32_208 : BitVec 32 := 0#32
  let v289 : BitVec 1 := Scalar.cmpi .eq c16_i32_207 c0_i32_208
  let c1_i32_209 : BitVec 32 := 1#32
  let v290 : BitVec 32 := Scalar.select v289 c1_i32_209 c16_i32_207
  let v291 : BitVec 32 := Scalar.remsi v288 v290
  let c0_i32_211 : BitVec 32 := 0#32
  let v293 : BitVec 1 := Scalar.cmpi .slt v291 c0_i32_211
  let c0_i32_212 : BitVec 32 := 0#32
  let v294 : BitVec 1 := Scalar.cmpi .slt v290 c0_i32_212
  let v295 : BitVec 1 := Scalar.xori v293 v294
  let c0_i32_210 : BitVec 32 := 0#32
  let v292 : BitVec 1 := Scalar.cmpi .ne v291 c0_i32_210
  let v296 : BitVec 1 := Scalar.andi v295 v292
  let v297 : BitVec 32 := Scalar.addi v291 v290
  let v298 : BitVec 32 := Scalar.select v296 v297 v291
  let c1_i32_217 : BitVec 32 := 1#32
  let v299 : BitVec 32 := Scalar.muli v298 c1_i32_217
  let v300 : BitVec 32 := Scalar.addi c0_i32_218 v299
  v300.toNat
def k0_dev20 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_223 : BitVec 32 := 5#32
  let v309 : BitVec 32 := Scalar.addi v2 c5_i32_223
  let c16_i32_224 : BitVec 32 := 16#32
  let c0_i32_225 : BitVec 32 := 0#32
  let v310 : BitVec 1 := Scalar.cmpi .eq c16_i32_224 c0_i32_225
  let c1_i32_226 : BitVec 32 := 1#32
  let v311 : BitVec 32 := Scalar.select v310 c1_i32_226 c16_i32_224
  let v312 : BitVec 32 := Scalar.remsi v309 v311
  let c0_i32_228 : BitVec 32 := 0#32
  let v314 : BitVec 1 := Scalar.cmpi .slt v312 c0_i32_228
  let c0_i32_229 : BitVec 32 := 0#32
  let v315 : BitVec 1 := Scalar.cmpi .slt v311 c0_i32_229
  let v316 : BitVec 1 := Scalar.xori v314 v315
  let c0_i32_227 : BitVec 32 := 0#32
  let v313 : BitVec 1 := Scalar.cmpi .ne v312 c0_i32_227
  let v317 : BitVec 1 := Scalar.andi v316 v313
  let v318 : BitVec 32 := Scalar.addi v312 v311
  let v319 : BitVec 32 := Scalar.select v317 v318 v312
  let c1_i32_234 : BitVec 32 := 1#32
  let v320 : BitVec 32 := Scalar.muli v319 c1_i32_234
  let v321 : BitVec 32 := Scalar.addi c0_i32_235 v320
  v321.toNat
def k0_dev21 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_240 : BitVec 32 := 6#32
  let v330 : BitVec 32 := Scalar.addi v2 c6_i32_240
  let c16_i32_241 : BitVec 32 := 16#32
  let c0_i32_242 : BitVec 32 := 0#32
  let v331 : BitVec 1 := Scalar.cmpi .eq c16_i32_241 c0_i32_242
  let c1_i32_243 : BitVec 32 := 1#32
  let v332 : BitVec 32 := Scalar.select v331 c1_i32_243 c16_i32_241
  let v333 : BitVec 32 := Scalar.remsi v330 v332
  let c0_i32_245 : BitVec 32 := 0#32
  let v335 : BitVec 1 := Scalar.cmpi .slt v333 c0_i32_245
  let c0_i32_246 : BitVec 32 := 0#32
  let v336 : BitVec 1 := Scalar.cmpi .slt v332 c0_i32_246
  let v337 : BitVec 1 := Scalar.xori v335 v336
  let c0_i32_244 : BitVec 32 := 0#32
  let v334 : BitVec 1 := Scalar.cmpi .ne v333 c0_i32_244
  let v338 : BitVec 1 := Scalar.andi v337 v334
  let v339 : BitVec 32 := Scalar.addi v333 v332
  let v340 : BitVec 32 := Scalar.select v338 v339 v333
  let c1_i32_251 : BitVec 32 := 1#32
  let v341 : BitVec 32 := Scalar.muli v340 c1_i32_251
  let v342 : BitVec 32 := Scalar.addi c0_i32_252 v341
  v342.toNat
def k0_dev22 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_257 : BitVec 32 := 7#32
  let v351 : BitVec 32 := Scalar.addi v2 c7_i32_257
  let c16_i32_258 : BitVec 32 := 16#32
  let c0_i32_259 : BitVec 32 := 0#32
  let v352 : BitVec 1 := Scalar.cmpi .eq c16_i32_258 c0_i32_259
  let c1_i32_260 : BitVec 32 := 1#32
  let v353 : BitVec 32 := Scalar.select v352 c1_i32_260 c16_i32_258
  let v354 : BitVec 32 := Scalar.remsi v351 v353
  let c0_i32_262 : BitVec 32 := 0#32
  let v356 : BitVec 1 := Scalar.cmpi .slt v354 c0_i32_262
  let c0_i32_263 : BitVec 32 := 0#32
  let v357 : BitVec 1 := Scalar.cmpi .slt v353 c0_i32_263
  let v358 : BitVec 1 := Scalar.xori v356 v357
  let c0_i32_261 : BitVec 32 := 0#32
  let v355 : BitVec 1 := Scalar.cmpi .ne v354 c0_i32_261
  let v359 : BitVec 1 := Scalar.andi v358 v355
  let v360 : BitVec 32 := Scalar.addi v354 v353
  let v361 : BitVec 32 := Scalar.select v359 v360 v354
  let c1_i32_268 : BitVec 32 := 1#32
  let v362 : BitVec 32 := Scalar.muli v361 c1_i32_268
  let v363 : BitVec 32 := Scalar.addi c0_i32_269 v362
  v363.toNat
def k0_dev23 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_274 : BitVec 32 := 8#32
  let v372 : BitVec 32 := Scalar.addi v2 c8_i32_274
  let c16_i32_275 : BitVec 32 := 16#32
  let c0_i32_276 : BitVec 32 := 0#32
  let v373 : BitVec 1 := Scalar.cmpi .eq c16_i32_275 c0_i32_276
  let c1_i32_277 : BitVec 32 := 1#32
  let v374 : BitVec 32 := Scalar.select v373 c1_i32_277 c16_i32_275
  let v375 : BitVec 32 := Scalar.remsi v372 v374
  let c0_i32_279 : BitVec 32 := 0#32
  let v377 : BitVec 1 := Scalar.cmpi .slt v375 c0_i32_279
  let c0_i32_280 : BitVec 32 := 0#32
  let v378 : BitVec 1 := Scalar.cmpi .slt v374 c0_i32_280
  let v379 : BitVec 1 := Scalar.xori v377 v378
  let c0_i32_278 : BitVec 32 := 0#32
  let v376 : BitVec 1 := Scalar.cmpi .ne v375 c0_i32_278
  let v380 : BitVec 1 := Scalar.andi v379 v376
  let v381 : BitVec 32 := Scalar.addi v375 v374
  let v382 : BitVec 32 := Scalar.select v380 v381 v375
  let c1_i32_285 : BitVec 32 := 1#32
  let v383 : BitVec 32 := Scalar.muli v382 c1_i32_285
  let v384 : BitVec 32 := Scalar.addi c0_i32_286 v383
  v384.toNat
def k0_dev24 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_291 : BitVec 32 := 9#32
  let v393 : BitVec 32 := Scalar.addi v2 c9_i32_291
  let c16_i32_292 : BitVec 32 := 16#32
  let c0_i32_293 : BitVec 32 := 0#32
  let v394 : BitVec 1 := Scalar.cmpi .eq c16_i32_292 c0_i32_293
  let c1_i32_294 : BitVec 32 := 1#32
  let v395 : BitVec 32 := Scalar.select v394 c1_i32_294 c16_i32_292
  let v396 : BitVec 32 := Scalar.remsi v393 v395
  let c0_i32_296 : BitVec 32 := 0#32
  let v398 : BitVec 1 := Scalar.cmpi .slt v396 c0_i32_296
  let c0_i32_297 : BitVec 32 := 0#32
  let v399 : BitVec 1 := Scalar.cmpi .slt v395 c0_i32_297
  let v400 : BitVec 1 := Scalar.xori v398 v399
  let c0_i32_295 : BitVec 32 := 0#32
  let v397 : BitVec 1 := Scalar.cmpi .ne v396 c0_i32_295
  let v401 : BitVec 1 := Scalar.andi v400 v397
  let v402 : BitVec 32 := Scalar.addi v396 v395
  let v403 : BitVec 32 := Scalar.select v401 v402 v396
  let c1_i32_302 : BitVec 32 := 1#32
  let v404 : BitVec 32 := Scalar.muli v403 c1_i32_302
  let v405 : BitVec 32 := Scalar.addi c0_i32_303 v404
  v405.toNat
def k0_dev25 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_308 : BitVec 32 := 10#32
  let v414 : BitVec 32 := Scalar.addi v2 c10_i32_308
  let c16_i32_309 : BitVec 32 := 16#32
  let c0_i32_310 : BitVec 32 := 0#32
  let v415 : BitVec 1 := Scalar.cmpi .eq c16_i32_309 c0_i32_310
  let c1_i32_311 : BitVec 32 := 1#32
  let v416 : BitVec 32 := Scalar.select v415 c1_i32_311 c16_i32_309
  let v417 : BitVec 32 := Scalar.remsi v414 v416
  let c0_i32_313 : BitVec 32 := 0#32
  let v419 : BitVec 1 := Scalar.cmpi .slt v417 c0_i32_313
  let c0_i32_314 : BitVec 32 := 0#32
  let v420 : BitVec 1 := Scalar.cmpi .slt v416 c0_i32_314
  let v421 : BitVec 1 := Scalar.xori v419 v420
  let c0_i32_312 : BitVec 32 := 0#32
  let v418 : BitVec 1 := Scalar.cmpi .ne v417 c0_i32_312
  let v422 : BitVec 1 := Scalar.andi v421 v418
  let v423 : BitVec 32 := Scalar.addi v417 v416
  let v424 : BitVec 32 := Scalar.select v422 v423 v417
  let c1_i32_319 : BitVec 32 := 1#32
  let v425 : BitVec 32 := Scalar.muli v424 c1_i32_319
  let v426 : BitVec 32 := Scalar.addi c0_i32_320 v425
  v426.toNat
def k0_dev26 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_325 : BitVec 32 := 11#32
  let v435 : BitVec 32 := Scalar.addi v2 c11_i32_325
  let c16_i32_326 : BitVec 32 := 16#32
  let c0_i32_327 : BitVec 32 := 0#32
  let v436 : BitVec 1 := Scalar.cmpi .eq c16_i32_326 c0_i32_327
  let c1_i32_328 : BitVec 32 := 1#32
  let v437 : BitVec 32 := Scalar.select v436 c1_i32_328 c16_i32_326
  let v438 : BitVec 32 := Scalar.remsi v435 v437
  let c0_i32_330 : BitVec 32 := 0#32
  let v440 : BitVec 1 := Scalar.cmpi .slt v438 c0_i32_330
  let c0_i32_331 : BitVec 32 := 0#32
  let v441 : BitVec 1 := Scalar.cmpi .slt v437 c0_i32_331
  let v442 : BitVec 1 := Scalar.xori v440 v441
  let c0_i32_329 : BitVec 32 := 0#32
  let v439 : BitVec 1 := Scalar.cmpi .ne v438 c0_i32_329
  let v443 : BitVec 1 := Scalar.andi v442 v439
  let v444 : BitVec 32 := Scalar.addi v438 v437
  let v445 : BitVec 32 := Scalar.select v443 v444 v438
  let c1_i32_336 : BitVec 32 := 1#32
  let v446 : BitVec 32 := Scalar.muli v445 c1_i32_336
  let v447 : BitVec 32 := Scalar.addi c0_i32_337 v446
  v447.toNat
def k0_dev27 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_342 : BitVec 32 := 12#32
  let v456 : BitVec 32 := Scalar.addi v2 c12_i32_342
  let c16_i32_343 : BitVec 32 := 16#32
  let c0_i32_344 : BitVec 32 := 0#32
  let v457 : BitVec 1 := Scalar.cmpi .eq c16_i32_343 c0_i32_344
  let c1_i32_345 : BitVec 32 := 1#32
  let v458 : BitVec 32 := Scalar.select v457 c1_i32_345 c16_i32_343
  let v459 : BitVec 32 := Scalar.remsi v456 v458
  let c0_i32_347 : BitVec 32 := 0#32
  let v461 : BitVec 1 := Scalar.cmpi .slt v459 c0_i32_347
  let c0_i32_348 : BitVec 32 := 0#32
  let v462 : BitVec 1 := Scalar.cmpi .slt v458 c0_i32_348
  let v463 : BitVec 1 := Scalar.xori v461 v462
  let c0_i32_346 : BitVec 32 := 0#32
  let v460 : BitVec 1 := Scalar.cmpi .ne v459 c0_i32_346
  let v464 : BitVec 1 := Scalar.andi v463 v460
  let v465 : BitVec 32 := Scalar.addi v459 v458
  let v466 : BitVec 32 := Scalar.select v464 v465 v459
  let c1_i32_353 : BitVec 32 := 1#32
  let v467 : BitVec 32 := Scalar.muli v466 c1_i32_353
  let v468 : BitVec 32 := Scalar.addi c0_i32_354 v467
  v468.toNat
def k0_dev28 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_359 : BitVec 32 := 13#32
  let v477 : BitVec 32 := Scalar.addi v2 c13_i32_359
  let c16_i32_360 : BitVec 32 := 16#32
  let c0_i32_361 : BitVec 32 := 0#32
  let v478 : BitVec 1 := Scalar.cmpi .eq c16_i32_360 c0_i32_361
  let c1_i32_362 : BitVec 32 := 1#32
  let v479 : BitVec 32 := Scalar.select v478 c1_i32_362 c16_i32_360
  let v480 : BitVec 32 := Scalar.remsi v477 v479
  let c0_i32_364 : BitVec 32 := 0#32
  let v482 : BitVec 1 := Scalar.cmpi .slt v480 c0_i32_364
  let c0_i32_365 : BitVec 32 := 0#32
  let v483 : BitVec 1 := Scalar.cmpi .slt v479 c0_i32_365
  let v484 : BitVec 1 := Scalar.xori v482 v483
  let c0_i32_363 : BitVec 32 := 0#32
  let v481 : BitVec 1 := Scalar.cmpi .ne v480 c0_i32_363
  let v485 : BitVec 1 := Scalar.andi v484 v481
  let v486 : BitVec 32 := Scalar.addi v480 v479
  let v487 : BitVec 32 := Scalar.select v485 v486 v480
  let c1_i32_370 : BitVec 32 := 1#32
  let v488 : BitVec 32 := Scalar.muli v487 c1_i32_370
  let v489 : BitVec 32 := Scalar.addi c0_i32_371 v488
  v489.toNat
def k0_dev29 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_376 : BitVec 32 := 14#32
  let v498 : BitVec 32 := Scalar.addi v2 c14_i32_376
  let c16_i32_377 : BitVec 32 := 16#32
  let c0_i32_378 : BitVec 32 := 0#32
  let v499 : BitVec 1 := Scalar.cmpi .eq c16_i32_377 c0_i32_378
  let c1_i32_379 : BitVec 32 := 1#32
  let v500 : BitVec 32 := Scalar.select v499 c1_i32_379 c16_i32_377
  let v501 : BitVec 32 := Scalar.remsi v498 v500
  let c0_i32_381 : BitVec 32 := 0#32
  let v503 : BitVec 1 := Scalar.cmpi .slt v501 c0_i32_381
  let c0_i32_382 : BitVec 32 := 0#32
  let v504 : BitVec 1 := Scalar.cmpi .slt v500 c0_i32_382
  let v505 : BitVec 1 := Scalar.xori v503 v504
  let c0_i32_380 : BitVec 32 := 0#32
  let v502 : BitVec 1 := Scalar.cmpi .ne v501 c0_i32_380
  let v506 : BitVec 1 := Scalar.andi v505 v502
  let v507 : BitVec 32 := Scalar.addi v501 v500
  let v508 : BitVec 32 := Scalar.select v506 v507 v501
  let c1_i32_387 : BitVec 32 := 1#32
  let v509 : BitVec 32 := Scalar.muli v508 c1_i32_387
  let v510 : BitVec 32 := Scalar.addi c0_i32_388 v509
  v510.toNat
def k0_dev30 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_393 : BitVec 32 := 15#32
  let v519 : BitVec 32 := Scalar.addi v2 c15_i32_393
  let c16_i32_394 : BitVec 32 := 16#32
  let c0_i32_395 : BitVec 32 := 0#32
  let v520 : BitVec 1 := Scalar.cmpi .eq c16_i32_394 c0_i32_395
  let c1_i32_396 : BitVec 32 := 1#32
  let v521 : BitVec 32 := Scalar.select v520 c1_i32_396 c16_i32_394
  let v522 : BitVec 32 := Scalar.remsi v519 v521
  let c0_i32_398 : BitVec 32 := 0#32
  let v524 : BitVec 1 := Scalar.cmpi .slt v522 c0_i32_398
  let c0_i32_399 : BitVec 32 := 0#32
  let v525 : BitVec 1 := Scalar.cmpi .slt v521 c0_i32_399
  let v526 : BitVec 1 := Scalar.xori v524 v525
  let c0_i32_397 : BitVec 32 := 0#32
  let v523 : BitVec 1 := Scalar.cmpi .ne v522 c0_i32_397
  let v527 : BitVec 1 := Scalar.andi v526 v523
  let v528 : BitVec 32 := Scalar.addi v522 v521
  let v529 : BitVec 32 := Scalar.select v527 v528 v522
  let c1_i32_404 : BitVec 32 := 1#32
  let v530 : BitVec 32 := Scalar.muli v529 c1_i32_404
  let v531 : BitVec 32 := Scalar.addi c0_i32_405 v530
  v531.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  reduces_S4x512x256_S4x512 : S4x512x256.Reduces [2] S4x512
  inb_S16x8x512_S1x4x512_0_0_0 : ∀ a, (![0, 0, 0] : Fin 3 → Nat) a + S1x4x512.size a ≤ S16x8x512.size a
  h_S1x4x512 : 0 < S1x4x512.numel
  shapeCasts_S1x4x512_S4x512 : S1x4x512.ShapeCasts S4x512
  shapeCasts_S4x512_S1x4x512 : S4x512.ShapeCasts S1x4x512
  inb_S16x8x512_S1x4x512_0_4_0 : ∀ a, (![0, 4, 0] : Fin 3 → Nat) a + S1x4x512.size a ≤ S16x8x512.size a
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  hamt_15 : (15#32 : BitVec 32).msb = false
  inb_S15_S1_0 : ∀ a, (![0] : Fin 1 → Nat) a + S1.size a ≤ S15.size a
  squeezes_S1_S_ : S1.Squeezes S_
  inb_S16x8x512_S1x8x512_1_0_0 : ∀ a, (![1, 0, 0] : Fin 3 → Nat) a + S1x8x512.size a ≤ S16x8x512.size a
  squeezes_S1x8x512_S8x512 : S1x8x512.Squeezes S8x512
  inb_S16x8x512_S1x8x512_0_0_0 : ∀ a, (![0, 0, 0] : Fin 3 → Nat) a + S1x8x512.size a ≤ S16x8x512.size a
  inb_S15_S1_1 : ∀ a, (![1] : Fin 1 → Nat) a + S1.size a ≤ S15.size a
  inb_S16x8x512_S1x8x512_2_0_0 : ∀ a, (![2, 0, 0] : Fin 3 → Nat) a + S1x8x512.size a ≤ S16x8x512.size a
  inb_S15_S1_2 : ∀ a, (![2] : Fin 1 → Nat) a + S1.size a ≤ S15.size a
  inb_S16x8x512_S1x8x512_3_0_0 : ∀ a, (![3, 0, 0] : Fin 3 → Nat) a + S1x8x512.size a ≤ S16x8x512.size a
  inb_S15_S1_3 : ∀ a, (![3] : Fin 1 → Nat) a + S1.size a ≤ S15.size a
  inb_S16x8x512_S1x8x512_4_0_0 : ∀ a, (![4, 0, 0] : Fin 3 → Nat) a + S1x8x512.size a ≤ S16x8x512.size a
  inb_S15_S1_4 : ∀ a, (![4] : Fin 1 → Nat) a + S1.size a ≤ S15.size a
  inb_S16x8x512_S1x8x512_5_0_0 : ∀ a, (![5, 0, 0] : Fin 3 → Nat) a + S1x8x512.size a ≤ S16x8x512.size a
  inb_S15_S1_5 : ∀ a, (![5] : Fin 1 → Nat) a + S1.size a ≤ S15.size a
  inb_S16x8x512_S1x8x512_6_0_0 : ∀ a, (![6, 0, 0] : Fin 3 → Nat) a + S1x8x512.size a ≤ S16x8x512.size a
  inb_S15_S1_6 : ∀ a, (![6] : Fin 1 → Nat) a + S1.size a ≤ S15.size a
  inb_S16x8x512_S1x8x512_7_0_0 : ∀ a, (![7, 0, 0] : Fin 3 → Nat) a + S1x8x512.size a ≤ S16x8x512.size a
  inb_S15_S1_7 : ∀ a, (![7] : Fin 1 → Nat) a + S1.size a ≤ S15.size a
  inb_S16x8x512_S1x8x512_8_0_0 : ∀ a, (![8, 0, 0] : Fin 3 → Nat) a + S1x8x512.size a ≤ S16x8x512.size a
  inb_S15_S1_8 : ∀ a, (![8] : Fin 1 → Nat) a + S1.size a ≤ S15.size a
  inb_S16x8x512_S1x8x512_9_0_0 : ∀ a, (![9, 0, 0] : Fin 3 → Nat) a + S1x8x512.size a ≤ S16x8x512.size a
  inb_S15_S1_9 : ∀ a, (![9] : Fin 1 → Nat) a + S1.size a ≤ S15.size a
  inb_S16x8x512_S1x8x512_10_0_0 : ∀ a, (![10, 0, 0] : Fin 3 → Nat) a + S1x8x512.size a ≤ S16x8x512.size a
  inb_S15_S1_10 : ∀ a, (![10] : Fin 1 → Nat) a + S1.size a ≤ S15.size a
  inb_S16x8x512_S1x8x512_11_0_0 : ∀ a, (![11, 0, 0] : Fin 3 → Nat) a + S1x8x512.size a ≤ S16x8x512.size a
  inb_S15_S1_11 : ∀ a, (![11] : Fin 1 → Nat) a + S1.size a ≤ S15.size a
  inb_S16x8x512_S1x8x512_12_0_0 : ∀ a, (![12, 0, 0] : Fin 3 → Nat) a + S1x8x512.size a ≤ S16x8x512.size a
  inb_S15_S1_12 : ∀ a, (![12] : Fin 1 → Nat) a + S1.size a ≤ S15.size a
  inb_S16x8x512_S1x8x512_13_0_0 : ∀ a, (![13, 0, 0] : Fin 3 → Nat) a + S1x8x512.size a ≤ S16x8x512.size a
  inb_S15_S1_13 : ∀ a, (![13] : Fin 1 → Nat) a + S1.size a ≤ S15.size a
  inb_S16x8x512_S1x8x512_14_0_0 : ∀ a, (![14, 0, 0] : Fin 3 → Nat) a + S1x8x512.size a ≤ S16x8x512.size a
  inb_S15_S1_14 : ∀ a, (![14] : Fin 1 → Nat) a + S1.size a ≤ S15.size a
  inb_S16x8x512_S1x8x512_15_0_0 : ∀ a, (![15, 0, 0] : Fin 3 → Nat) a + S1x8x512.size a ≤ S16x8x512.size a
  h_S1x8x512 : 0 < S1x8x512.numel
  shapeCasts_S1x8x512_S8x512 : S1x8x512.ShapeCasts S8x512
  slices_S8x512_o0_0_S4x512 : S8x512.Slices ![0, 0] S4x512
  slices_S8x512_o4_0_S4x512 : S8x512.Slices ![4, 0] S4x512
  shapeCasts_S4x512_S4x512x1 : S4x512.ShapeCasts S4x512x1
  broadcasts_S4x512x1_S4x512x256 : S4x512x1.Broadcasts S4x512x256
  shapeCasts_S4x256_S4x1x256 : S4x256.ShapeCasts S4x1x256
  broadcasts_S4x1x256_S4x512x256 : S4x1x256.Broadcasts S4x512x256
  packedbf16_S4x512x256_S4x512x256_0_0_0 : (Rect.unit (s := S4x512x256) ![0, 0, 0] S4x512x256.size inb_S4x512x256_S4x512x256_0_0_0).PackedRows (EltTy.packing .bf16)
  dot_S4x128_S128x256_S4x256_1_0_0_1_n_n_wf : DotDims.WF S4x128 S128x256 S4x256 [1] [0] [0] [1] [] []
  hcc0_scratch1 : 5 + S15.numel ≤ 35
  hcc0_scratch2 : 20 + S15.numel ≤ 35
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch1 : DmaSems sig S15 := SemArray.consecutive 5 S15 hcc0_scratch1
abbrev cc0_scratch2 : DmaSems sig S15 := SemArray.consecutive 20 S15 hcc0_scratch2
def dot_S4x128_S128x256_S4x256_1_0_0_1_n_n : DotDims S4x128 S128x256 S4x256 where
  lhsContracting := [1]
  rhsContracting := [0]
  lhsNonContracting := [0]
  rhsNonContracting := [1]
  lhsBatch := []
  rhsBatch := []
  wf := dot_S4x128_S128x256_S4x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x4096 : Shape := ⟨3, ![4, 512, 4096]⟩
abbrev S4x128 : Shape := ⟨2, ![4, 128]⟩
abbrev S128x4096 : Shape := ⟨2, ![128, 4096]⟩
abbrev S_ : Shape := ⟨0, ![]⟩
abbrev S4x512 : Shape := ⟨2, ![4, 512]⟩
abbrev S4x512x1 : Shape := ⟨3, ![4, 512, 1]⟩
abbrev S4x4096 : Shape := ⟨2, ![4, 4096]⟩
abbrev S4x1x4096 : Shape := ⟨3, ![4, 1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S4x128, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S_, .i32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S_, .f32⟩
  | .hbm, ⟨15, _⟩ => ⟨S4x512x1, .f32⟩
  | .hbm, ⟨16, _⟩ => ⟨S4x512x1, .f32⟩
  | .hbm, ⟨17, _⟩ => ⟨S4x512x4096, .f32⟩
  | .hbm, ⟨18, _⟩ => ⟨S4x512x4096, .f32⟩
  | .hbm, ⟨19, _⟩ => ⟨S4x512x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x1, .f32⟩
  | .hbm, ⟨27, _⟩ => ⟨S4x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x512x1, .f32⟩
  | .hbm, ⟨33, _⟩ => ⟨S4x512x1, .f32⟩
  | .hbm, ⟨34, _⟩ => ⟨S4x512x4096, .f32⟩
  | .hbm, ⟨35, _⟩ => ⟨S4x512x4096, .f32⟩
  | .hbm, ⟨36, _⟩ => ⟨S_, .f32⟩
  | .hbm, ⟨37, _⟩ => ⟨S4x512x1, .f32⟩
  | .hbm, ⟨38, _⟩ => ⟨S4x512x1, .f32⟩
  | .hbm, ⟨39, _⟩ => ⟨S4x512x1, .f32⟩
  | .hbm, ⟨40, _⟩ => ⟨S4x512x4096, .f32⟩
  | .hbm, ⟨41, _⟩ => ⟨S4x512x4096, .f32⟩
  | .hbm, ⟨42, _⟩ => ⟨S4x4096, .f32⟩
  | .hbm, ⟨43, _⟩ => ⟨S4x4096, .f32⟩
  | .hbm, ⟨44, _⟩ => ⟨S4x1x4096, .f32⟩
  | .hbm, ⟨45, _⟩ => ⟨S_, .f32⟩
  | .hbm, ⟨46, _⟩ => ⟨S4x1x4096, .f32⟩
  | .hbm, ⟨47, _⟩ => ⟨S4x1x4096, .f32⟩
  | .hbm, ⟨48, _⟩ => ⟨S4x512x4096, .f32⟩
  | .hbm, ⟨49, _⟩ => ⟨S4x512x4096, .f32⟩
  | .hbm, ⟨50, _⟩ => ⟨S4x1x4096, .f32⟩
  | .hbm, ⟨51, _⟩ => ⟨S4x512x4096, .f32⟩
  | .hbm, ⟨52, _⟩ => ⟨S4x512x4096, .f32⟩
  | .hbm, ⟨53, _⟩ => ⟨S4x512x4096, .bf16⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]

class Facts₀ : Prop where
  reducesTo_S4x512x4096_S4x512_d2 : S4x512x4096.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x4096_0_1_2 : S4x512x1.BroadcastsInDim S4x512x4096 (![0, 1, 2] : Fin 3 → Fin S4x512x4096.rank)
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x512x4096_0_1_2 : S4x1x4096.BroadcastsInDim S4x512x4096 (![0, 1, 2] : Fin 3 → Fin S4x512x4096.rank)
  bitsLt_bf16_f32 : FTy.bits .bf16 < FTy.bits .f32
  dot_S4x128_S128x4096_S4x4096_1_0_0_1_n_n_wf : DotDims.WF S4x128 S128x4096 S4x4096 [1] [0] [0] [1] [] []

variable [Facts₀]

def dot_S4x128_S128x4096_S4x4096_1_0_0_1_n_n : DotDims S4x128 S128x4096 S4x4096 where
  lhsContracting := [1]
  rhsContracting := [0]
  lhsNonContracting := [0]
  rhsNonContracting := [1]
  lhsBatch := []
  rhsBatch := []
  wf := dot_S4x128_S128x4096_S4x4096_1_0_0_1_n_n_wf

class Facts : Prop extends Facts₀ where

variable [Facts]
-- ==== Proof.RefRun.lean ====
import proofs.«900769_g7700000000000770_dist_diff_adaln_cshard_i_b4_s512_c256_v7x_i16_bf16_1_alg».proof.Proof.Gen.ReferenceIdeal
import Idealize.ShloMosaic.Lib.StableHlo.Run
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

def rowSum (Y : FVec F S4x512x4096 .f32) : FVec F S4x512x1 .f32 :=
  broadcastInDim S4x512x1 ![0, 1] bcast_S4x512_S4x512x1_0_1
    (Host.reduceAdd Y (constant S_ .f32 0x00000000#32) reducesTo_S4x512x4096_S4x512_d2 h_S_)

def meanArr (X : FVec F S4x512x4096 .f32) : FVec F S4x512x1 .f32 :=
  Host.divf (rowSum X) (broadcastInDim S4x512x1 ![] bcast_S_S4x512x1 (constant S_ .f32 0x45800000#32))

def centred (X : FVec F S4x512x4096 .f32) : FVec F S4x512x4096 .f32 :=
  subf X (broadcastInDim S4x512x4096 ![0, 1, 2] bcast_S4x512x1_S4x512x4096_0_1_2 (meanArr X))

def countArr : FVec F S_ .f32 :=
  subf (constant S_ .f32 0x45800000#32) (sitofp .f32 (constantI S_ 32 0#32))

def varArr (X : FVec F S4x512x4096 .f32) : FVec F S4x512x1 .f32 :=
  select (broadcastInDim S4x512x1 ![] bcast_S_S4x512x1 (cmpf .ogt (countArr (F := F)) (constant S_ .f32 0x00000000#32)))
    (Host.divf (rowSum (mulf (centred X) (centred X))) (broadcastInDim S4x512x1 ![] bcast_S_S4x512x1 countArr))
    (broadcastInDim S4x512x1 ![] bcast_S_S4x512x1 (id (constant S_ .f32 0x7FC00000#32)))

def normArr (X : FVec F S4x512x4096 .f32) : FVec F S4x512x4096 .f32 :=
  Host.divf (centred X)
    (broadcastInDim S4x512x4096 ![0, 1, 2] bcast_S4x512x1_S4x512x4096_0_1_2
      (Host.sqrt (addf (varArr X) (broadcastInDim S4x512x1 ![] bcast_S_S4x512x1 (constant S_ .f32 0x3727C5AC#32)))))

def projArr (T : FVec F S4x128 .f32) (Wm : FVec F S128x4096 .f32) : FVec F S4x1x4096 .f32 :=
  broadcastInDim S4x1x4096 ![0, 2] bcast_S4x4096_S4x1x4096_0_2
    (Host.dotGeneral dot_S4x128_S128x4096_S4x4096_1_0_0_1_n_n none T Wm)

def outArr (X : FVec F S4x512x4096 .f32) (T : FVec F S4x128 .f32) (Ws Wsh : FVec F S128x4096 .f32) : FVec F S4x512x4096 .bf16 :=
  truncf .bf16
    (addf
      (mulf (normArr X)
        (broadcastInDim S4x512x4096 ![0, 1, 2] bcast_S4x1x4096_S4x512x4096_0_1_2
          (addf (broadcastInDim S4x1x4096 ![] bcast_S_S4x1x4096 (constant S_ .f32 0x3F800000#32)) (projArr T Ws))))
      (broadcastInDim S4x512x4096 ![0, 1, 2] bcast_S4x1x4096_S4x512x4096_0_1_2 (projArr T Wsh)))
    bitsLt_bf16_f32

def refOut (X : (⟨S4x512x4096, .f32⟩ : BufTy).Contents (Elt Ideal)) (T : (⟨S4x128, .f32⟩ : BufTy).Contents (Elt Ideal))
    (Ws Wsh : (⟨S128x4096, .f32⟩ : BufTy).Contents (Elt Ideal)) : (⟨S4x512x4096, .bf16⟩ : BufTy).Contents (Elt Ideal) :=
  outArr (F := Ideal) X T Ws Wsh

abbrev ops : List (HloOp τ sig (Elt F)) :=
  [ nullary main_cst (constant S_ .f32 0x00000000#32),
    binary main_arg0 main_cst main_v0 (fun x v => Host.reduceAdd x v reducesTo_S4x512x4096_S4x512_d2 h_S_),
    unary main_v0 main_v1 (broadcastInDim S4x512x1 ![0, 1] bcast_S4x512_S4x512x1_0_1),
    nullary main_cst_0 (constant S_ .f32 0x45800000#32),
    unary main_cst_0 main_v2 (broadcastInDim S4x512x1 ![] bcast_S_S4x512x1),
    binary main_v1 main_v2 main_v3 Host.divf,
    nullary main_c (constantI S_ 32 0#32),
    TRef.nullary main_call0.cst (constant S_ .f32 0x00000000#32),
    TRef.binary (.of main_arg0) main_call0.cst main_call0.v0 (fun x v => Host.reduceAdd x v reducesTo_S4x512x4096_S4x512_d2 h_S_),
    TRef.unary main_call0.v0 main_call0.v1 (broadcastInDim S4x512x1 ![0, 1] bcast_S4x512_S4x512x1_0_1),
    TRef.nullary main_call0.cst_0 (constant S_ .f32 0x45800000#32),
    TRef.unary main_call0.cst_0 main_call0.v2 (broadcastInDim S4x512x1 ![] bcast_S_S4x512x1),
    TRef.binary main_call0.v1 main_call0.v2 main_call0.v3 Host.divf,
    TRef.unary main_call0.v3 main_call0.v4 (broadcastInDim S4x512x4096 ![0, 1, 2] bcast_S4x512x1_S4x512x4096_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x512x4096_S4x512_d2 h_S_),
    TRef.unary main_call0.v9 main_call0.v10 (broadcastInDim S4x512x1 ![0, 1] bcast_S4x512_S4x512x1_0_1),
    TRef.unary main_call0.v8 main_call0.v11 (broadcastInDim S4x512x1 ![] bcast_S_S4x512x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x512x1 ![] bcast_S_S4x512x1),
    TRef.ternary main_call0.v13 main_call0.v12 main_call0.call0.v1 main_call0.call0.v2 (fun p a b => select (broadcastInDim S4x512x1 ![] bcast_S_S4x512x1 p) a b),
    unary main_v3 main_v5 (broadcastInDim S4x512x4096 ![0, 1, 2] bcast_S4x512x1_S4x512x4096_0_1_2),
    binary main_arg0 main_v5 main_v6 subf,
    nullary main_cst_1 (constant S_ .f32 0x3727C5AC#32),
    unary main_cst_1 main_v7 (broadcastInDim S4x512x1 ![] bcast_S_S4x512x1),
    binary main_v4 main_v7 main_v8 addf,
    unary main_v8 main_v9 Host.sqrt,
    unary main_v9 main_v10 (broadcastInDim S4x512x4096 ![0, 1, 2] bcast_S4x512x1_S4x512x4096_0_1_2),
    binary main_v6 main_v10 main_v11 Host.divf,
    binary main_arg1 main_arg2 main_v12 (fun l r => Host.dotGeneral dot_S4x128_S128x4096_S4x4096_1_0_0_1_n_n none l r),
    binary main_arg1 main_arg3 main_v13 (fun l r => Host.dotGeneral dot_S4x128_S128x4096_S4x4096_1_0_0_1_n_n none l r),
    unary main_v12 main_v14 (broadcastInDim S4x1x4096 ![0, 2] bcast_S4x4096_S4x1x4096_0_2),
    nullary main_cst_2 (constant S_ .f32 0x3F800000#32),
    unary main_cst_2 main_v15 (broadcastInDim S4x1x4096 ![] bcast_S_S4x1x4096),
    binary main_v15 main_v14 main_v16 addf,
    unary main_v16 main_v17 (broadcastInDim S4x512x4096 ![0, 1, 2] bcast_S4x1x4096_S4x512x4096_0_1_2),
    binary main_v11 main_v17 main_v18 mulf,
    unary main_v13 main_v19 (broadcastInDim S4x1x4096 ![0, 2] bcast_S4x4096_S4x1x4096_0_2),
    unary main_v19 main_v20 (broadcastInDim S4x512x4096 ![0, 1, 2] bcast_S4x1x4096_S4x512x4096_0_1_2),
    binary main_v18 main_v20 main_v21 addf,
    unary main_v21 main_v22 (truncf .bf16 · bitsLt_bf16_f32) ]

theorem main_eq [Cert.ReferenceIdeal.Facts] (c : Dev nD) : main (F := F) c = seq ops := by
  simp only [main, fn_var.body, fn_where.body, seq, bind_assoc, pure_bind]
  rfl

theorem ref_run [Cert.ReferenceIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v22).trans (by after_results_simp; rfl), (h c main_arg0).trans (by after_results_simp),
      (h c main_arg1).trans (by after_results_simp), (h c main_arg2).trans (by after_results_simp),
      (h c main_arg3).trans (by after_results_simp)⟩)
    (run_seq (by decide) (by decide) defs main (fun _ => ops) main_eq
      (fun _ => by simp only [List.Forall, nullary_bufs_sub, unary_bufs_sub, binary_bufs_sub, ternary_bufs_sub, and_self]) m ρ)

end Cert.RefSide

end
-- ==== Proof.DevEqs.lean ====
import proofs.«900769_g7700000000000770_dist_diff_adaln_cshard_i_b4_s512_c256_v7x_i16_bf16_1_alg».proof.Proof.Gen.KernelIdeal

namespace Cert.KernelIdeal.Ring

open Idealize.ShloMosaic Cert.KernelIdeal Cert.KernelIdeal.Gen

/-- The device k+1 places after c on the ring of sixteen, and the device k+1 places before it. -/
def up (c : Dev nD) (k : Fin 15) : Dev nD := ⟨(c.val + k.val + 1) % 16, Nat.mod_lt _ (by decide)⟩
def dn (c : Dev nD) (k : Fin 15) : Dev nD := ⟨(c.val + 15 - k.val) % 16, Nat.mod_lt _ (by decide)⟩
/-- Lane k read from the other end: lanes k and rev k together go once round the ring. -/
def rev (k : Fin 15) : Fin 15 := ⟨14 - k.val, by omega⟩

theorem dn_up (c : Dev nD) (k : Fin 15) : dn (up c k) k = c := by revert c k; decide
theorem up_dn (c : Dev nD) (k : Fin 15) : up (dn c k) k = c := by revert c k; decide
theorem up_up_rev (c : Dev nD) (k : Fin 15) : up (up c k) (rev k) = c := by revert c k; decide
theorem up_rev_eq_dn (c : Dev nD) (k : Fin 15) : up c (rev k) = dn c k := by revert c k; decide
theorem rev_rev (k : Fin 15) : rev (rev k) = k := by revert k; decide
theorem up_ne (c : Dev nD) (k : Fin 15) : up c k ≠ c := by revert c k; decide
theorem up_inj (c : Dev nD) (k k' : Fin 15) (h : up c k = up c k') : k = k' := by revert c k k'; decide

/-! The signals' targets (chains 1 to 15) and the copies' targets (chains 16 to 30). -/
theorem dev1_eq (c : Dev nD) : (⟨k0_dev1 c, k0_dev1_lt c⟩ : Dev nD) = up c 0 := by revert c; decide +kernel
theorem dev2_eq (c : Dev nD) : (⟨k0_dev2 c, k0_dev2_lt c⟩ : Dev nD) = up c 1 := by revert c; decide +kernel
theorem dev3_eq (c : Dev nD) : (⟨k0_dev3 c, k0_dev3_lt c⟩ : Dev nD) = up c 2 := by revert c; decide +kernel
theorem dev4_eq (c : Dev nD) : (⟨k0_dev4 c, k0_dev4_lt c⟩ : Dev nD) = up c 3 := by revert c; decide +kernel
theorem dev5_eq (c : Dev nD) : (⟨k0_dev5 c, k0_dev5_lt c⟩ : Dev nD) = up c 4 := by revert c; decide +kernel
theorem dev6_eq (c : Dev nD) : (⟨k0_dev6 c, k0_dev6_lt c⟩ : Dev nD) = up c 5 := by revert c; decide +kernel
theorem dev7_eq (c : Dev nD) : (⟨k0_dev7 c, k0_dev7_lt c⟩ : Dev nD) = up c 6 := by revert c; decide +kernel
theorem dev8_eq (c : Dev nD) : (⟨k0_dev8 c, k0_dev8_lt c⟩ : Dev nD) = up c 7 := by revert c; decide +kernel
theorem dev9_eq (c : Dev nD) : (⟨k0_dev9 c, k0_dev9_lt c⟩ : Dev nD) = up c 8 := by revert c; decide +kernel
theorem dev10_eq (c : Dev nD) : (⟨k0_dev10 c, k0_dev10_lt c⟩ : Dev nD) = up c 9 := by revert c; decide +kernel
theorem dev11_eq (c : Dev nD) : (⟨k0_dev11 c, k0_dev11_lt c⟩ : Dev nD) = up c 10 := by revert c; decide +kernel
theorem dev12_eq (c : Dev nD) : (⟨k0_dev12 c, k0_dev12_lt c⟩ : Dev nD) = up c 11 := by revert c; decide +kernel
theorem dev13_eq (c : Dev nD) : (⟨k0_dev13 c, k0_dev13_lt c⟩ : Dev nD) = up c 12 := by revert c; decide +kernel
theorem dev14_eq (c : Dev nD) : (⟨k0_dev14 c, k0_dev14_lt c⟩ : Dev nD) = up c 13 := by revert c; decide +kernel
theorem dev15_eq (c : Dev nD) : (⟨k0_dev15 c, k0_dev15_lt c⟩ : Dev nD) = up c 14 := by revert c; decide +kernel
theorem dev16_eq (c : Dev nD) : (⟨k0_dev16 c, k0_dev16_lt c⟩ : Dev nD) = up c 0 := by revert c; decide +kernel
theorem dev17_eq (c : Dev nD) : (⟨k0_dev17 c, k0_dev17_lt c⟩ : Dev nD) = up c 1 := by revert c; decide +kernel
theorem dev18_eq (c : Dev nD) : (⟨k0_dev18 c, k0_dev18_lt c⟩ : Dev nD) = up c 2 := by revert c; decide +kernel
theorem dev19_eq (c : Dev nD) : (⟨k0_dev19 c, k0_dev19_lt c⟩ : Dev nD) = up c 3 := by revert c; decide +kernel
theorem dev20_eq (c : Dev nD) : (⟨k0_dev20 c, k0_dev20_lt c⟩ : Dev nD) = up c 4 := by revert c; decide +kernel
theorem dev21_eq (c : Dev nD) : (⟨k0_dev21 c, k0_dev21_lt c⟩ : Dev nD) = up c 5 := by revert c; decide +kernel
theorem dev22_eq (c : Dev nD) : (⟨k0_dev22 c, k0_dev22_lt c⟩ : Dev nD) = up c 6 := by revert c; decide +kernel
theorem dev23_eq (c : Dev nD) : (⟨k0_dev23 c, k0_dev23_lt c⟩ : Dev nD) = up c 7 := by revert c; decide +kernel
theorem dev24_eq (c : Dev nD) : (⟨k0_dev24 c, k0_dev24_lt c⟩ : Dev nD) = up c 8 := by revert c; decide +kernel
theorem dev25_eq (c : Dev nD) : (⟨k0_dev25 c, k0_dev25_lt c⟩ : Dev nD) = up c 9 := by revert c; decide +kernel
theorem dev26_eq (c : Dev nD) : (⟨k0_dev26 c, k0_dev26_lt c⟩ : Dev nD) = up c 10 := by revert c; decide +kernel
theorem dev27_eq (c : Dev nD) : (⟨k0_dev27 c, k0_dev27_lt c⟩ : Dev nD) = up c 11 := by revert c; decide +kernel
theorem dev28_eq (c : Dev nD) : (⟨k0_dev28 c, k0_dev28_lt c⟩ : Dev nD) = up c 12 := by revert c; decide +kernel
theorem dev29_eq (c : Dev nD) : (⟨k0_dev29 c, k0_dev29_lt c⟩ : Dev nD) = up c 13 := by revert c; decide +kernel
theorem dev30_eq (c : Dev nD) : (⟨k0_dev30 c, k0_dev30_lt c⟩ : Dev nD) = up c 14 := by revert c; decide +kernel

end Cert.KernelIdeal.Ring
-- ==== Proof.KOut.lean ====
import proofs.«900769_g7700000000000770_dist_diff_adaln_cshard_i_b4_s512_c256_v7x_i16_bf16_1_alg».proof.Proof.Gen.KernelIdeal.Skeleton
import Idealize.ShloMosaic.Lib.ValueIdx

noncomputable section

namespace Cert.KernelIdeal.KOut

open Idealize.ShloMosaic Idealize.ShloMosaic.ValueIdx Cert.KernelIdeal Cert.KernelIdeal.Gen

variable {F : FTy → Type} [FloatOps F]

def partOf (x : Vec F S4x512x256 .f32) : Vec F S1x8x512 .f32 := fun i =>
  if h : (i 1).val < 4 then k0_pay2 x (ix3 (0 : Fin 1) (⟨(i 1).val, h⟩ : Fin 4) (⟨(i 2).val, (i 2).isLt⟩ : Fin 512))
  else k0_pay3 x (ix3 (0 : Fin 1) (⟨(i 1).val - 4, by have h8 : (i 1).val < 8 := (i 1).isLt; omega⟩ : Fin 4) (⟨(i 2).val, (i 2).isLt⟩ : Fin 512))

def tot (s : Fin 16 → Vec F S1x8x512 .f32) : FVec F S8x512 .f32 :=
  k0_pay17 (k0_pay16 (k0_pay15 (k0_pay14 (k0_pay13 (k0_pay12 (k0_pay11 (k0_pay10 (k0_pay9 (k0_pay8 (k0_pay7 (s 0)) (s 1)) (s 2) (s 3)) (s 4))
    (s 5) (s 6)) (s 7)) (s 8) (s 9)) (s 10)) (s 11)) (s 12) (s 13)) (s 14)

def kout (x : Vec F S4x512x256 .f32) (t : Vec F S4x128 .f32) (ws wsh : Vec F S128x256 .f32) (s : Fin 16 → Vec F S1x8x512 .f32) :
    FVec F S4x512x256 .bf16 :=
  k0_pay18 (k0_pay4 t ws) (k0_pay5 t wsh) (k0_pay6 x) (tot s) (s 15)

end Cert.KernelIdeal.KOut

end
-- ==== Proof.Cells.lean ====
import proofs.«900769_g7700000000000770_dist_diff_adaln_cshard_i_b4_s512_c256_v7x_i16_bf16_1_alg».proof.Proof.DevEqs
import proofs.«900769_g7700000000000770_dist_diff_adaln_cshard_i_b4_s512_c256_v7x_i16_bf16_1_alg».proof.Proof.KOut
import proofs.«900769_g7700000000000770_dist_diff_adaln_cshard_i_b4_s512_c256_v7x_i16_bf16_1_alg».proof.Proof.Gen.KernelIdeal.Launch
import proofs.«900769_g7700000000000770_dist_diff_adaln_cshard_i_b4_s512_c256_v7x_i16_bf16_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Proto

open Cert.KernelIdeal Cert.KernelIdeal.Gen Cert.KernelIdeal.Ring
open Idealize.ShloMosaic Idealize.ShloMosaic.TcCoe Idealize.ShloMosaic.ValueIdx Idealize.ShloMosaic.Rounds
open Idealize.SL Idealize.SL.RA Idealize.SL.BI
open scoped Idealize.SL.BI
open Idealize.SL.BI.BIBase

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S4x512x256 .f32 := Memref.whole cc0_stg0_0
abbrev tM : Memref sig .tc .vmem S4x128 .f32 := Memref.whole cc0_stg1_0
abbrev wsM : Memref sig .tc .vmem S128x256 .f32 := Memref.whole cc0_stg2_0
abbrev whM : Memref sig .tc .vmem S128x256 .f32 := Memref.whole cc0_stg3_0
abbrev oM : Memref sig .tc .vmem S4x512x256 .bf16 := Memref.whole cc0_stg4_0
abbrev cM : Memref sig .tc .vmem S16x8x512 .f32 := Memref.whole cc0_scratch0

theorem slot_inb (k : Fin 16) : ∀ a, (![k.val, 0, 0] : Fin 3 → Nat) a + S1x8x512.size a ≤ S16x8x512.size a := by
  revert k; decide

abbrev slotR (k : Fin 16) : Rect S16x8x512 := Rect.unit (s := S16x8x512) ![k.val, 0, 0] S1x8x512.size (slot_inb k)
abbrev slotM (k : Fin 16) : Memref sig .tc .vmem S8x512 .f32 :=
  ((cM.slice (slotR k) (fun _ => rfl)).squeeze S8x512 squeezes_S1x8x512_S8x512)

def slotOf (k : Fin 15) : Fin 16 := ⟨k.val + 1, by omega⟩

abbrev barS : Sem sig := (SemArray.scalar (sig.barrier 0 rfl) : Sems sig S_).sem

def sendS (k : Fin 15) : DmaSem sig := ⟨5 + k.val, Nat.lt_of_lt_of_le (Nat.add_lt_add_left k.isLt 5) (by decide)⟩
def recvS (k : Fin 15) : DmaSem sig := ⟨20 + k.val, Nat.lt_of_lt_of_le (Nat.add_lt_add_left k.isLt 20) (by decide)⟩

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

abbrev osem : Bool × Fin 15 → SemLoc sig := fun x => if x.1 then .dma (recvS x.2) else .dma (sendS x.2)

abbrev csem : Option (Bool × Fin 15) → SemLoc sig := fun | none => .reg barS | some x => osem x
abbrev kcell (ck : Dev nD × Option (Bool × Fin 15)) : GSem nD τ sig := ((ck.1 : Thread nD τ), csem ck.2)

def sendLane : SemLoc sig → Option (Fin 15)
  | .dma q => if h : 5 ≤ q.val ∧ q.val < 20 then some ⟨q.val - 5, by omega⟩ else none
  | _ => none
def recvLane : SemLoc sig → Option (Fin 15)
  | .dma q => if h : 20 ≤ q.val ∧ q.val < 35 then some ⟨q.val - 20, by omega⟩ else none
  | _ => none

theorem sendLane_send (k : Fin 15) : sendLane (.dma (sendS k)) = some k := by revert k; decide
theorem recvLane_recv (k : Fin 15) : recvLane (.dma (recvS k)) = some k := by revert k; decide
theorem recvLane_send (k : Fin 15) : recvLane (.dma (sendS k)) = none := by revert k; decide

abbrev N : ℕ := (slotM 0 : Memref sig .tc .vmem S8x512 .f32).view.dmaCredit
theorem N_pos : 0 < N := View.dmaCredit_pos _ (by decide)

def xstg (c : Dev nD) : (cc0_stg0_0 : Ref sig .tc).ty.Contents (Elt F) :=
  (win0_0.blk t0_0).view.read (Elt F) ((s₀ m ρ).mem ((c : Thread nD τ).loc main_arg0))
def tstg (c : Dev nD) : (cc0_stg1_0 : Ref sig .tc).ty.Contents (Elt F) :=
  (win0_1.blk t0_0).view.read (Elt F) ((s₀ m ρ).mem ((c : Thread nD τ).loc main_arg1))
def wsstg (c : Dev nD) : (cc0_stg2_0 : Ref sig .tc).ty.Contents (Elt F) :=
  (win0_2.blk t0_0).view.read (Elt F) ((s₀ m ρ).mem ((c : Thread nD τ).loc main_arg2))
def whstg (c : Dev nD) : (cc0_stg3_0 : Ref sig .tc).ty.Contents (Elt F) :=
  (win0_3.blk t0_0).view.read (Elt F) ((s₀ m ρ).mem ((c : Thread nD τ).loc main_arg3))

def partC (d : Dev nD) : Vec F S1x8x512 .f32 := KOut.partOf (xstg m ρ d)

def srcDev (c : Dev nD) (k : Fin 16) : Dev nD := ⟨(c.val + 16 - k.val) % 16, Nat.mod_lt _ (by decide)⟩

theorem srcDev_zero (c : Dev nD) : srcDev c 0 = c := by revert c; decide

def outC (c : Dev nD) : (cc0_stg4_0 : Ref sig .tc).ty.Contents (Elt F) :=
  KOut.kout (xstg m ρ c) (tstg m ρ c) (wsstg m ρ c) (whstg m ρ c) (fun k => partC m ρ (srcDev c k))

def lift (v : Vec F S1x8x512 .f32) : (cc0_scratch0 : Ref sig .tc).ty.Contents (Elt F) :=
  fun i => v (ix3 (0 : Fin 1) (⟨(i 1).val, (i 1).isLt⟩ : Fin 8) (⟨(i 2).val, (i 2).isLt⟩ : Fin 512))

def slotPts (c : Dev nD) (k : Fin 16) (q : PosShare TreeShare) (f : Buf (Elt F) ((slotM k : Memref sig .tc .vmem S8x512 .f32).view.loc (c : Thread nD τ))) : sProp 𝕄 :=
  (slotM k : Memref sig .tc .vmem S8x512 .f32).view.loc (c : Thread nD τ) ↦[(slotM k : Memref sig .tc .vmem S8x512 .f32).view.set]{q} f

omit [FloatOps F] in
instance slotPts_storable (c : Dev nD) (k : Fin 16) (q : PosShare TreeShare) (f) : BI.Storable (upEmb : UEmb _ 𝕄) (slotPts (F := F) c k q f) := by
  unfold slotPts; infer_instance

abbrev laneShare (k : Fin 15) : PosShare TreeShare := Transfers.shareTok fullShare 15 k

abbrev restShare : PosShare TreeShare := Transfers.shareDrop fullShare 15

def barPay (e : Dev nD) (i : Fin 15) : sProp 𝕄 :=
  iprop((∃ f, slotPts (up e (rev i)) (slotOf (rev i)) fullShare f) ∗ reached ER (recvCell (up e (rev i)) (rev i)) 0)

def recvPay (c : Dev nD) (k : Fin 15) : sProp 𝕄 := slotPts c (slotOf k) fullShare (lift (partC m ρ (dn c k)))

def sendPay (c : Dev nD) (k : Fin 15) : sProp 𝕄 := slotPts c 0 (laneShare k) (lift (partC m ρ c))

def sched : Rounds.Schedule (GSem nD τ sig) (Fin 15) 𝕄 where
  duties g r :=
    if r = 0 ∧ g.1.2 = .tc then
      (if g.2 = .reg barS then Finset.univ else if (sendLane g.2).isSome ∨ (recvLane g.2).isSome then {0} else ∅)
    else ∅
  unitless _ := False
  amount g _ _ := if g.2 = .reg barS then 1 else N
  payload g _ d :=
    if g.2 = .reg barS then barPay g.1.1 d
    else match recvLane g.2 with
      | some k => recvPay m ρ g.1.1 k
      | none => match sendLane g.2 with
        | some k => sendPay m ρ g.1.1 k
        | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 15) :
    BI.Storable (upEmb : UEmb _ 𝕄) ((sched (F := F) m ρ).payload g r d) := by
  dsimp only [sched]; unfold barPay recvPay sendPay
  (repeat' split) <;> infer_instance

end Cert.KernelIdeal.Proto

end
-- ==== Proof.Spec.lean ====
import Idealize.ShloMosaic.PureOps.Ideal
import Idealize.ShloMosaic.PureOps.Ideal.Laws
import Idealize.ShloMosaic.Lib.ValueIdx
import Idealize.ShloMosaic.Lib.Layout

noncomputable section

namespace Cert.Spec

open Idealize.ShloMosaic Idealize.ShloMosaic.ValueIdx

abbrev SX : Shape := ⟨3, ![4, 512, 4096]⟩
abbrev SXb : Shape := ⟨3, ![4, 512, 256]⟩
abbrev ST : Shape := ⟨2, ![4, 128]⟩
abbrev SW : Shape := ⟨2, ![128, 4096]⟩
abbrev SWb : Shape := ⟨2, ![128, 256]⟩

abbrev wN : EReal := Ideal.ofBits .f32 0x45800000#32
abbrev wInvN : EReal := Ideal.ofBits .f32 0x39800000#32
abbrev wOne : EReal := Ideal.ofBits .f32 0x3F800000#32
abbrev wEps : EReal := Ideal.ofBits .f32 0x3727C5AC#32

def dotAt {n : Nat} (T : ST.Idx → EReal) (W : (⟨2, ![128, n]⟩ : Shape).Idx → EReal) (b : Fin 4) (j : Fin n) : EReal :=
  ∑ k : Fin 128, T (ix2 b k) * W (ix2 k j)

def refMean (X : SX.Idx → EReal) (b : Fin 4) (s : Fin 512) : EReal :=
  Ideal.div (∑ l : Fin 4096, X (ix3 b s l)) wN

def refVar (X : SX.Idx → EReal) (b : Fin 4) (s : Fin 512) : EReal :=
  Ideal.div (∑ l : Fin 4096, (X (ix3 b s l) - refMean X b s) * (X (ix3 b s l) - refMean X b s)) wN

def RspecAt (X : SX.Idx → EReal) (T : ST.Idx → EReal) (Ws Wsh : SW.Idx → EReal) (b : Fin 4) (s : Fin 512) (j : Fin 4096) : EReal :=
  Ideal.div (X (ix3 b s j) - refMean X b s) (Ideal.sqrt (refVar X b s + wEps)) * (wOne + dotAt T Ws b j) + dotAt T Wsh b j

def srcOf (c k : Fin 16) : Fin 16 := ⟨(c.val + 16 - k.val) % 16, Nat.mod_lt _ (by decide)⟩

def partSum (Xd : SXb.Idx → EReal) (b : Fin 4) (s : Fin 512) : EReal := ∑ l : Fin 256, Xd (ix3 b s l)
def partSq (Xd : SXb.Idx → EReal) (b : Fin 4) (s : Fin 512) : EReal := ∑ l : Fin 256, Xd (ix3 b s l) * Xd (ix3 b s l)

def cyc (p : Fin 16 → EReal) (c : Fin 16) : EReal :=
  p (srcOf c 0) + p (srcOf c 1) + p (srcOf c 2) + p (srcOf c 3) + p (srcOf c 4) + p (srcOf c 5) + p (srcOf c 6) + p (srcOf c 7)
    + p (srcOf c 8) + p (srcOf c 9) + p (srcOf c 10) + p (srcOf c 11) + p (srcOf c 12) + p (srcOf c 13) + p (srcOf c 14) + p (srcOf c 15)

def kMean (Xb : Fin 16 → SXb.Idx → EReal) (c : Fin 16) (b : Fin 4) (s : Fin 512) : EReal :=
  cyc (fun d => partSum (Xb d) b s) c * wInvN

def kVar (Xb : Fin 16 → SXb.Idx → EReal) (c : Fin 16) (b : Fin 4) (s : Fin 512) : EReal :=
  cyc (fun d => partSq (Xb d) b s) c * wInvN - kMean Xb c b s * kMean Xb c b s

def KspecAt (Xb : Fin 16 → SXb.Idx → EReal) (T : ST.Idx → EReal) (Wsb Wshb : SWb.Idx → EReal)
    (c : Fin 16) (b : Fin 4) (s : Fin 512) (j : Fin 256) : EReal :=
  (Xb c (ix3 b s j) - kMean Xb c b s) * Ideal.rsqrt (kVar Xb c b s + wEps) * (wOne + dotAt T Wsb b j) + dotAt T Wshb b j

end Cert.Spec

end
-- ==== Proof.KVal.lean ====
import proofs.«900769_g7700000000000770_dist_diff_adaln_cshard_i_b4_s512_c256_v7x_i16_bf16_1_alg».proof.Proof.KOut
import proofs.«900769_g7700000000000770_dist_diff_adaln_cshard_i_b4_s512_c256_v7x_i16_bf16_1_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.KernelIdeal.KVal

open Idealize.ShloMosaic Idealize.ShloMosaic.ValueIdx Cert.KernelIdeal Cert.KernelIdeal.Gen Cert.KernelIdeal.KOut Cert.Spec

theorem pay1_eq (x : Vec Ideal S4x512x256 .f32) : k0_pay1 x = x := shapeCast_self x _

theorem sum_lane (v : FVec Ideal S4x512x256 .f32) (b : Fin 4) (s : Fin 512) :
    multiReduction (F := Ideal) .add [2] S4x512 v 0x00000000#32 reduces_S4x512x256_S4x512 (.inl rfl) rfl (ix2 b s)
      = ∑ l : Fin 256, v (ix3 b s l) :=
  (Ideal.multiReduction_add_single v _ _ _ _ (ix2 b s)).trans (Finset.sum_congr rfl fun l _ => congrArg v (funext fun c =>
    Fin.ext (by match c with | ⟨0, _⟩ => rfl | ⟨1, _⟩ => rfl | ⟨2, _⟩ => rfl)))

theorem partOf_sum (x : Vec Ideal S4x512x256 .f32) (b : Fin 4) (s : Fin 512) :
    partOf x (ix3 (0 : Fin 1) (⟨b.val, by omega⟩ : Fin 8) s) = partSum x b s := by
  unfold partOf
  rw [dif_pos (show ((ix3 (0 : Fin 1) (⟨b.val, by omega⟩ : Fin 8) s) 1).val < 4 from b.isLt)]
  unfold k0_pay2
  rw [pay1_eq]
  exact (shapeCast_ab_1ab_apply _ _ (0 : Fin 1) b s).trans (sum_lane x b s)

theorem pay3_at (x : Vec Ideal S4x512x256 .f32) (b b' : Fin 4) (hb : b' = b) (s : Fin 512) :
    k0_pay3 x (ix3 (0 : Fin 1) b' s) = partSq x b s := by
  subst hb
  unfold k0_pay3
  rw [pay1_eq]
  exact (shapeCast_ab_1ab_apply _ _ (0 : Fin 1) b' s).trans (sum_lane (mulf x x) b' s)

theorem partOf_sq (x : Vec Ideal S4x512x256 .f32) (b : Fin 4) (s : Fin 512) :
    partOf x (ix3 (0 : Fin 1) (⟨b.val + 4, by omega⟩ : Fin 8) s) = partSq x b s := by
  unfold partOf
  rw [dif_neg (show ¬ ((ix3 (0 : Fin 1) (⟨b.val + 4, by omega⟩ : Fin 8) s) 1).val < 4 from Nat.not_lt.2 (Nat.le_add_left 4 b.val))]
  exact pay3_at x b _ (Fin.ext (Nat.add_sub_cancel b.val 4)) s

theorem dot_at (t : FVec Ideal S4x128 .f32) (w : FVec Ideal S128x256 .f32) (b : Fin 4) (j : Fin 256) :
    matmul dot_S4x128_S128x256_S4x256_1_0_0_1_n_n none t w (constant (F := Ideal) S4x256 .f32 0x00000000#32) (ix2 b j)
      = dotAt t w b j :=
  (Ideal.matmul_constant_zero_apply _ none t w (ix2 b j)).trans
    ((Ideal.dotGeneral_apply _ none _ t w (ix2 b j)).symm.trans (StackMember.dotGeneral_plain_apply none t w b j))

theorem pay4_at (t : Vec Ideal S4x128 .f32) (w : Vec Ideal S128x256 .f32) (b : Fin 4) (j : Fin 256) :
    k0_pay4 t w (ix2 b j) = wOne + dotAt t w b j := by
  unfold k0_pay4
  rw [shapeCast_self t, shapeCast_self w]
  exact congrArg (wOne + ·) (dot_at t w b j)

theorem pay5_at (t : Vec Ideal S4x128 .f32) (w : Vec Ideal S128x256 .f32) (b : Fin 4) (j : Fin 256) :
    k0_pay5 t w (ix2 b j) = dotAt t w b j := by
  unfold k0_pay5
  rw [shapeCast_self t, shapeCast_self w]
  exact dot_at t w b j

theorem pay6_at (x : Vec Ideal S4x512x256 .f32) (b : Fin 4) (s : Fin 512) (j : Fin 256) :
    k0_pay6 x (ix3 b s j) = x (ix3 b s j) :=
  congrFun (pay1_eq x) _

theorem col_at (m : FVec Ideal S4x512 .bf16) (b : Fin 4) (s : Fin 512) (j : Fin 256) :
    broadcastTo S4x512x256 (shapeCast S4x512x1 m shapeCasts_S4x512_S4x512x1) broadcasts_S4x512x1_S4x512x256 (ix3 b s j)
      = m (ix2 b s) :=
  (broadcastTo_apply _ _ (ix3 b s j) (ix3 b s (0 : Fin 1)) fun ax => by
    match ax with | ⟨0, _⟩ => rfl | ⟨1, _⟩ => rfl | ⟨2, _⟩ => rfl).trans
  (shapeCast_apply m _ _ (ix2 b s) (by
    rw [Shape.rowMajor_val_three, Shape.rowMajor_val_two]
    exact (Nat.mul_one (b.val * 512 + s.val)).symm))

theorem row_at (m : FVec Ideal S4x256 .bf16) (b : Fin 4) (s : Fin 512) (j : Fin 256) :
    broadcastTo S4x512x256 (shapeCast S4x1x256 m shapeCasts_S4x256_S4x1x256) broadcasts_S4x1x256_S4x512x256 (ix3 b s j)
      = m (ix2 b j) :=
  (broadcastTo_apply _ _ (ix3 b s j) (ix3 b (0 : Fin 1) j) fun ax => by
    match ax with | ⟨0, _⟩ => rfl | ⟨1, _⟩ => rfl | ⟨2, _⟩ => rfl).trans
  (shapeCast_apply m _ _ (ix2 b j) (by
    rw [Shape.rowMajor_val_three, Shape.rowMajor_val_two]
    exact congrArg (· * 256 + j.val) (Nat.mul_one b.val).symm))

theorem top_at (w : FVec Ideal S8x512 .f32) (b : Fin 4) (s : Fin 512) :
    extractStridedSlice S4x512 ![0, 0] w slices_S8x512_o0_0_S4x512 (ix2 b s) = w (ix2 (⟨b.val, by omega⟩ : Fin 8) s) :=
  slice2_axis0_apply 0 w _ b s _ (Nat.zero_add _).symm

theorem bot_at (w : FVec Ideal S8x512 .f32) (b : Fin 4) (s : Fin 512) :
    extractStridedSlice S4x512 ![4, 0] w slices_S8x512_o4_0_S4x512 (ix2 b s) = w (ix2 (⟨b.val + 4, by omega⟩ : Fin 8) s) :=
  slice2_axis0_apply 4 w _ b s _ (Nat.add_comm _ _)

theorem rsqrt_at {sh : Shape} {φ : FTy} (a : FVec Ideal sh φ) (i : sh.Idx) : rsqrt a i = Ideal.rsqrt (a i) := rfl

theorem kout_at (Xb : Fin 16 → Vec Ideal S4x512x256 .f32) (T : Vec Ideal S4x128 .f32) (Wsb Wshb : Vec Ideal S128x256 .f32)
    (c : Fin 16) (b : Fin 4) (s : Fin 512) (j : Fin 256) :
    kout (Xb c) T Wsb Wshb (fun k => partOf (Xb (srcOf c k))) (ix3 b s j) = KspecAt Xb T Wsb Wshb c b s j := by
  unfold kout tot k0_pay18 k0_pay17 k0_pay16 k0_pay15 k0_pay14 k0_pay13 k0_pay12 k0_pay11 k0_pay10 k0_pay9 k0_pay8 k0_pay7
  simp only [addf_apply, mulf_apply, subf_apply, col_at, row_at, truncf_apply, rsqrt_at, broadcast_apply, top_at, bot_at,
    shapeCast_1ab_ab_apply, pay4_at, pay5_at, pay6_at, partOf_sum, partOf_sq]
  unfold KspecAt kVar kMean cyc
  rfl

end Cert.KernelIdeal.KVal

end
-- ==== Proof.Bridge.lean ====
import proofs.«900769_g7700000000000770_dist_diff_adaln_cshard_i_b4_s512_c256_v7x_i16_bf16_1_alg».proof.Proof.Spec

noncomputable section

namespace Cert.Spec

open Idealize.ShloMosaic Idealize.ShloMosaic.ValueIdx

def colOf (c : Fin 16) (j : Fin 256) : Fin 4096 := ⟨c.val * 256 + j.val, by omega⟩

theorem wN_eq : wN = ((4096 : ℝ) : EReal) := by
  simp [Ideal.ofBits, Ideal.ieee, -EReal.coe_mul]; norm_num

theorem wInvN_eq : wInvN = ((1 / 4096 : ℝ) : EReal) := by
  simp [Ideal.ofBits, Ideal.ieee, -EReal.coe_mul]; norm_num

theorem wEps_eq : ∃ e : ℝ, 0 < e ∧ wEps = (e : EReal) := by
  refine ⟨_, ?_, by simp [Ideal.ofBits, Ideal.ieee, -EReal.coe_mul]; rfl⟩
  positivity

theorem blockX_apply {α : Type} (X : SX.Idx → α) (d : Fin 16) (b : Fin 4) (s : Fin 512) (l : Fin 256) :
    (Layout.block SXb SX 2 16 d X) (ix3 b s l) = X (ix3 b s (colOf d l)) :=
  congrArg X (funext fun a => by match a with | ⟨0, _⟩ => rfl | ⟨1, _⟩ => rfl | ⟨2, _⟩ => rfl)

theorem blockW_apply {α : Type} (W : SW.Idx → α) (c : Fin 16) (k : Fin 128) (j : Fin 256) :
    (Layout.block SWb SW 1 16 c W) (ix2 k j) = W (ix2 k (colOf c j)) :=
  congrArg W (funext fun a => by match a with | ⟨0, _⟩ => rfl | ⟨1, _⟩ => rfl)

theorem dotAt_block (T : ST.Idx → EReal) (W : SW.Idx → EReal) (c : Fin 16) (b : Fin 4) (j : Fin 256) :
    dotAt T (Layout.block SWb SW 1 16 c W) b j = dotAt T W b (colOf c j) := by
  unfold dotAt
  refine Finset.sum_congr rfl fun k _ => ?_
  rw [blockW_apply]

theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem srcOf_invol (c : Fin 16) : Function.Involutive (srcOf c) := by
  intro k
  apply Fin.ext
  have := c.isLt; have := k.isLt
  simp only [srcOf]
  omega

theorem sum16 (g : Fin 16 → ℝ) :
    ∑ k, g k = g 0 + g 1 + g 2 + g 3 + g 4 + g 5 + g 6 + g 7 + g 8 + g 9 + g 10 + g 11 + g 12 + g 13 + g 14 + g 15 := by
  simp only [Fin.sum_univ_castSucc, Finset.univ_eq_empty, Finset.sum_empty, zero_add]
  rfl

theorem cyc_coe (q : Fin 16 → ℝ) (c : Fin 16) : cyc (fun d => (q d : EReal)) c = ((∑ d, q d : ℝ) : EReal) := by
  have h : ∑ d, q d = ∑ k, q (srcOf c k) := (Equiv.sum_comp (srcOf_invol c).toPerm q).symm
  rw [h, sum16 (fun k => q (srcOf c k))]
  simp only [cyc, EReal.coe_add]

def colEquiv : Fin 16 × Fin 256 ≃ Fin 4096 where
  toFun p := colOf p.1 p.2
  invFun l := (⟨l.val / 256, by have := l.isLt; omega⟩, ⟨l.val % 256, Nat.mod_lt _ (by decide)⟩)
  left_inv := by
    rintro ⟨d, l⟩
    have := d.isLt; have := l.isLt
    refine Prod.ext (Fin.ext ?_) (Fin.ext ?_) <;> simp only [colOf] <;> omega
  right_inv := by
    intro l
    apply Fin.ext
    simp only [colOf]
    omega

theorem sum_row (f : Fin 4096 → ℝ) : ∑ l, f l = ∑ d : Fin 16, ∑ l : Fin 256, f (colOf d l) := by
  rw [← Equiv.sum_comp colEquiv f, Fintype.sum_prod_type]
  rfl

theorem var_identity (ρ : Fin 4096 → ℝ) (S Q μ : ℝ) (hS : S = ∑ l, ρ l) (hQ : Q = ∑ l, ρ l * ρ l)
    (hμ : μ = S * (1 / 4096)) :
    (∑ l, (ρ l - μ) * (ρ l - μ)) * (1 / 4096) = Q * (1 / 4096) - μ * μ := by
  have h1 : ∑ l, (ρ l - μ) * (ρ l - μ) = Q - 2 * μ * S + 4096 * (μ * μ) := by
    have h : ∀ l, (ρ l - μ) * (ρ l - μ) = ρ l * ρ l - 2 * μ * ρ l + μ * μ := fun l => by ring
    simp only [h]
    rw [Finset.sum_add_distrib, Finset.sum_sub_distrib, ← Finset.mul_sum, Finset.sum_const, Finset.card_univ,
      Fintype.card_fin, ← hS, ← hQ]
    simp
  rw [h1, hμ]; ring

theorem var_nonneg (ρ : Fin 4096 → ℝ) (μ : ℝ) : 0 ≤ (∑ l, (ρ l - μ) * (ρ l - μ)) * (1 / 4096) :=
  mul_nonneg (Finset.sum_nonneg fun l _ => mul_self_nonneg _) (by norm_num)

theorem div_sqrt_eq (a : EReal) (v e : ℝ) (hv : 0 ≤ v) (he : 0 < e) :
    Ideal.div a (Ideal.sqrt ((v : EReal) + (e : EReal))) = a * Ideal.rsqrt ((v : EReal) + (e : EReal)) := by
  have hpos : 0 < v + e := by linarith
  rw [← EReal.coe_add, Ideal.sqrt_coe, Ideal.rsqrt_coe, if_neg (not_lt.mpr hpos.le), if_neg (not_lt.mpr hpos.le),
    if_neg hpos.ne', Ideal.div_coe (Real.sqrt_ne_zero'.mpr hpos), one_div]

theorem refMean_coe (x : SX.Idx → ℝ) (b : Fin 4) (s : Fin 512) :
    refMean (fun i => (x i : EReal)) b s = (((∑ l : Fin 4096, x (ix3 b s l)) * (1 / 4096) : ℝ) : EReal) := by
  unfold refMean
  rw [wN_eq, Ideal.div_coe (by norm_num), coe_sum, ← EReal.coe_mul]

theorem refVar_coe (x : SX.Idx → ℝ) (b : Fin 4) (s : Fin 512) :
    refVar (fun i => (x i : EReal)) b s =
      (((∑ l : Fin 4096, (x (ix3 b s l) - (∑ l : Fin 4096, x (ix3 b s l)) * (1 / 4096))
          * (x (ix3 b s l) - (∑ l : Fin 4096, x (ix3 b s l)) * (1 / 4096))) * (1 / 4096) : ℝ) : EReal) := by
  unfold refVar
  rw [refMean_coe]
  simp only [← EReal.coe_sub, ← EReal.coe_mul]
  rw [wN_eq, Ideal.div_coe (by norm_num), coe_sum, ← EReal.coe_mul]

theorem cyc_blocks (f : Fin 4096 → ℝ) (c : Fin 16) :
    cyc (fun d => ∑ l : Fin 256, ((f (colOf d l) : ℝ) : EReal)) c = ((∑ l, f l : ℝ) : EReal) := by
  simp only [coe_sum]
  rw [cyc_coe, sum_row f]

theorem partSum_blocks (x : SX.Idx → ℝ) (c : Fin 16) (b : Fin 4) (s : Fin 512) :
    cyc (fun d => partSum (Layout.block SXb SX 2 16 d (fun i => (x i : EReal))) b s) c
      = ((∑ l : Fin 4096, x (ix3 b s l) : ℝ) : EReal) := by
  unfold partSum
  simp only [blockX_apply]
  exact cyc_blocks (fun l => x (ix3 b s l)) c

theorem partSq_blocks (x : SX.Idx → ℝ) (c : Fin 16) (b : Fin 4) (s : Fin 512) :
    cyc (fun d => partSq (Layout.block SXb SX 2 16 d (fun i => (x i : EReal))) b s) c
      = ((∑ l : Fin 4096, x (ix3 b s l) * x (ix3 b s l) : ℝ) : EReal) := by
  unfold partSq
  simp only [blockX_apply, ← EReal.coe_mul]
  exact cyc_blocks (fun l => x (ix3 b s l) * x (ix3 b s l)) c

theorem bridge (X : SX.Idx → EReal) (T : ST.Idx → EReal) (Ws Wsh : SW.Idx → EReal)
    (hX : ∀ i, ∃ r : ℝ, X i = (r : EReal)) (hT : ∀ i, ∃ r : ℝ, T i = (r : EReal))
    (hWs : ∀ i, ∃ r : ℝ, Ws i = (r : EReal)) (hWsh : ∀ i, ∃ r : ℝ, Wsh i = (r : EReal))
    (c : Fin 16) (b : Fin 4) (s : Fin 512) (j : Fin 256) :
    KspecAt (fun d => Layout.block SXb SX 2 16 d X) T (Layout.block SWb SW 1 16 c Ws) (Layout.block SWb SW 1 16 c Wsh) c b s j
      = RspecAt X T Ws Wsh b s (colOf c j) := by
  choose x hx using hX
  obtain rfl : X = fun i => (x i : EReal) := funext hx
  obtain ⟨e, he, hE⟩ := wEps_eq
  unfold KspecAt RspecAt kVar kMean
  beta_reduce
  rw [dotAt_block, dotAt_block, blockX_apply, partSum_blocks, partSq_blocks, refMean_coe, refVar_coe, wInvN_eq, hE]
  simp only [← EReal.coe_mul, ← EReal.coe_sub]
  rw [div_sqrt_eq _ _ e (var_nonneg (fun l => x (ix3 b s l)) _) he, var_identity (fun l => x (ix3 b s l)) _ _ _ rfl rfl rfl]

end Cert.Spec

end
-- ==== Proof.Finite.lean ====
import proofs.«900769_g7700000000000770_dist_diff_adaln_cshard_i_b4_s512_c256_v7x_i16_bf16_1_alg».proof.Pre_finite_inputs_Kernel
import proofs.«900769_g7700000000000770_dist_diff_adaln_cshard_i_b4_s512_c256_v7x_i16_bf16_1_alg».proof.Proof.Spec
import proofs.«900769_g7700000000000770_dist_diff_adaln_cshard_i_b4_s512_c256_v7x_i16_bf16_1_alg».proof.Proof.Bridge
import Idealize.ShloMosaic.Lib.ReduceAll
import Idealize.ShloMosaic.Lib.ValueIdx
import Idealize.ShloMosaic.Lib.Layout

noncomputable section

namespace Cert.Fin

open Idealize.ShloMosaic Idealize.ShloMosaic.ValueIdx Cert.Pre_finite_inputs_Kernel Cert.Spec

instance : Subsingleton S_.Idx := ⟨fun _ _ => funext fun d => d.elim0⟩

theorem real_of_all {s : Shape} {axes : List (Fin s.rank)} (x : s.Idx → EReal) (init : S_.Idx → BitVec 1)
    (hr : s.ReducesTo axes S_) (hu : 0 < S_.numel) (j : S_.Idx)
    (e : Host.reduce IntOp.andi (fun i => Ideal.cmp .olt (max (x i) (-(x i))) (Ideal.ofBits .f32 0x7F800000#32)) init hr hu j = 1#1)
    (i : s.Idx) : ∃ r : ℝ, x i = (r : EReal) := by
  have h := Host.reduce_andi_all _ init hr hu j e i
  rw [show Ideal.ofBits .f32 0x7F800000#32 = ⊤ by simp [Ideal.ofBits, Ideal.ieee]] at h
  generalize x i = y at h ⊢
  induction y using EReal.rec with
  | bot => simp [Ideal.cmp] at h
  | coe r => exact ⟨r, rfl⟩
  | top => simp [Ideal.cmp] at h

theorem finite_of_pre [Facts] (x : FVec Ideal S4x512x256 .f32) (t : FVec Ideal S4x128 .f32) (ws wsh : FVec Ideal S128x256 .f32)
    (h : fn (F := Ideal) x t ws wsh = (fun _ => 1#1)) :
    (∀ i, ∃ r : ℝ, x i = (r : EReal)) ∧ (∀ i, ∃ r : ℝ, t i = (r : EReal)) ∧ (∀ i, ∃ r : ℝ, ws i = (r : EReal))
      ∧ (∀ i, ∃ r : ℝ, wsh i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all x _ _ _ _ h1, real_of_all t _ _ _ _ h2, real_of_all ws _ _ _ _ h3, real_of_all wsh _ _ _ _ h4⟩

theorem whole_finite (X : SX.Idx → EReal)
    (hb : ∀ (c : Fin 16) (i : SXb.Idx), ∃ r : ℝ, (Layout.block SXb SX 2 16 c X) i = (r : EReal)) (i : SX.Idx) :
    ∃ r : ℝ, X i = (r : EReal) := by
  obtain ⟨b, s, l, rfl⟩ : ∃ (b : Fin 4) (s : Fin 512) (l : Fin 4096), i = ix3 b s l := ⟨i 0, i 1, i 2, eq_ix3 i⟩
  obtain ⟨⟨c, k⟩, rfl⟩ := colEquiv.surjective l
  have h := hb c (ix3 b s k)
  rw [blockX_apply] at h
  exact h

end Cert.Fin

end
-- ==== Proof.RefRead.lean ====
import proofs.«900769_g7700000000000770_dist_diff_adaln_cshard_i_b4_s512_c256_v7x_i16_bf16_1_alg».proof.Proof.RefRun
import proofs.«900769_g7700000000000770_dist_diff_adaln_cshard_i_b4_s512_c256_v7x_i16_bf16_1_alg».proof.Proof.Bridge
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

noncomputable section

namespace Cert.RefSide

open Cert.ReferenceIdeal Cert.ReferenceIdeal.Gen Idealize.ShloMosaic Idealize.ShloMosaic.ValueIdx Cert.Spec

section Layout
variable {α : Type}

theorem bcast_keep (u : S4x512.Idx → α) (b : Fin 4) (s : Fin 512) :
    broadcastInDim S4x512x1 ![0, 1] bcast_S4x512_S4x512x1_0_1 u (ix3 b s (0 : Fin 1)) = u (ix2 b s) :=
  broadcastInDim_apply _ _ _ _ _ fun a => by
    match a with | ⟨0, _⟩ => rfl | ⟨1, _⟩ => rfl

theorem bcast_col (u : S4x512x1.Idx → α) (b : Fin 4) (s : Fin 512) (l : Fin 4096) :
    broadcastInDim S4x512x4096 ![0, 1, 2] bcast_S4x512x1_S4x512x4096_0_1_2 u (ix3 b s l) = u (ix3 b s (0 : Fin 1)) :=
  broadcastInDim_apply _ _ _ _ _ fun a => by
    match a with | ⟨0, _⟩ => rfl | ⟨1, _⟩ => rfl | ⟨2, _⟩ => rfl

theorem bcast_mid (u : S4x4096.Idx → α) (b : Fin 4) (j : Fin 4096) :
    broadcastInDim S4x1x4096 ![0, 2] bcast_S4x4096_S4x1x4096_0_2 u (ix3 b (0 : Fin 1) j) = u (ix2 b j) :=
  broadcastInDim_apply _ _ _ _ _ fun a => by
    match a with | ⟨0, _⟩ => rfl | ⟨1, _⟩ => rfl

theorem bcast_row (u : S4x1x4096.Idx → α) (b : Fin 4) (s : Fin 512) (j : Fin 4096) :
    broadcastInDim S4x512x4096 ![0, 1, 2] bcast_S4x1x4096_S4x512x4096_0_1_2 u (ix3 b s j) = u (ix3 b (0 : Fin 1) j) :=
  broadcastInDim_apply _ _ _ _ _ fun a => by
    match a with | ⟨0, _⟩ => rfl | ⟨1, _⟩ => rfl | ⟨2, _⟩ => rfl

end Layout

theorem rowSum_at (Y : FVec Ideal S4x512x4096 .f32) (b : Fin 4) (s : Fin 512) :
    rowSum (F := Ideal) Y (ix3 b s (0 : Fin 1)) = ∑ l : Fin 4096, Y (ix3 b s l) := by
  unfold rowSum
  rw [bcast_keep, hostReduceAdd_apply,
    Ideal.hostReduceAdd_single _ (by decide : S4x512x4096.Reduces [2] S4x512)]
  show Ideal.ofBits .f32 0x00000000#32 + _ = _
  rw [Ideal.ofBits_zero_f32, zero_add]
  refine Finset.sum_congr rfl fun l _ => congrArg Y (funext fun a => ?_)
  match a with | ⟨0, _⟩ => rfl | ⟨1, _⟩ => rfl | ⟨2, _⟩ => rfl

theorem centred_at (X : FVec Ideal S4x512x4096 .f32) (b : Fin 4) (s : Fin 512) (l : Fin 4096) :
    centred (F := Ideal) X (ix3 b s l) = X (ix3 b s l) - refMean X b s := by
  unfold centred meanArr refMean
  rw [subf_apply, bcast_col, hostDivf_apply, rowSum_at, broadcastInDim_scalar_apply]
  rfl

theorem countArr_at : countArr (F := Ideal) ix0 = wN := by
  unfold countArr
  rw [subf_apply]
  show Ideal.ofBits .f32 0x45800000#32 - (((0#32 : BitVec 32).toInt : ℝ) : EReal) = _
  simp

theorem varArr_at (X : FVec Ideal S4x512x4096 .f32) (b : Fin 4) (s : Fin 512) :
    varArr (F := Ideal) X (ix3 b s (0 : Fin 1)) = refVar X b s := by
  unfold varArr
  rw [select_apply, broadcastInDim_scalar_apply, cmpf_apply, countArr_at]
  have hc : FloatOps.cmpf (F := Ideal) .ogt (wN : Ideal .f32) (constant (F := Ideal) S_ .f32 0x00000000#32 ix0) = 1#1 := by
    show Ideal.cmp .ogt wN (Ideal.ofBits .f32 0x00000000#32) = 1#1
    rw [Ideal.ofBits_zero_f32, wN_eq]
    unfold Ideal.cmp
    simp
  rw [hc, select_one, hostDivf_apply, rowSum_at, broadcastInDim_scalar_apply, countArr_at]
  unfold refVar
  congr 1
  refine Finset.sum_congr rfl fun l _ => ?_
  rw [mulf_apply, centred_at]

theorem projArr_at (T : FVec Ideal S4x128 .f32) (Wm : FVec Ideal S128x4096 .f32) (b : Fin 4) (j : Fin 4096) :
    projArr (F := Ideal) T Wm (ix3 b (0 : Fin 1) j) = dotAt T Wm b j := by
  unfold projArr dotAt
  rw [bcast_mid]
  exact StackMember.dotGeneral_plain_apply none T Wm b j

theorem refOut_at (X : FVec Ideal S4x512x4096 .f32) (T : FVec Ideal S4x128 .f32) (Ws Wsh : FVec Ideal S128x4096 .f32)
    (b : Fin 4) (s : Fin 512) (j : Fin 4096) : refOut X T Ws Wsh (ix3 b s j) = RspecAt X T Ws Wsh b s j := by
  unfold refOut outArr normArr RspecAt
  rw [truncf_apply, addf_apply, mulf_apply, hostDivf_apply, centred_at, bcast_col, bcast_row, addf_apply,
    broadcastInDim_scalar_apply, projArr_at, bcast_row, projArr_at]
  show Ideal.div _ (Ideal.sqrt (addf (F := Ideal) (varArr (F := Ideal) X) _ (ix3 b s (0 : Fin 1)))) * _ + _ = _
  rw [addf_apply, varArr_at, broadcastInDim_scalar_apply]
  rfl

end Cert.RefSide

end
-- ==== Proof.Alg.lean ====
import proofs.«900769_g7700000000000770_dist_diff_adaln_cshard_i_b4_s512_c256_v7x_i16_bf16_1_alg».proof.Proof.Cells
import proofs.«900769_g7700000000000770_dist_diff_adaln_cshard_i_b4_s512_c256_v7x_i16_bf16_1_alg».proof.Proof.KVal
import proofs.«900769_g7700000000000770_dist_diff_adaln_cshard_i_b4_s512_c256_v7x_i16_bf16_1_alg».proof.Proof.Bridge
import proofs.«900769_g7700000000000770_dist_diff_adaln_cshard_i_b4_s512_c256_v7x_i16_bf16_1_alg».proof.Proof.Finite
import proofs.«900769_g7700000000000770_dist_diff_adaln_cshard_i_b4_s512_c256_v7x_i16_bf16_1_alg».proof.Proof.RefRead
import proofs.«900769_g7700000000000770_dist_diff_adaln_cshard_i_b4_s512_c256_v7x_i16_bf16_1_alg».proof.Defs
import proofs.«900769_g7700000000000770_dist_diff_adaln_cshard_i_b4_s512_c256_v7x_i16_bf16_1_alg».proof.Proof.Gen.Pre_finite_inputs_Kernel

noncomputable section

namespace Cert.KernelIdeal.AlgV

open Idealize.ShloMosaic Idealize.ShloMosaic.TcCoe Idealize.ShloMosaic.ValueIdx Idealize.SL.Sem
open Cert.KernelIdeal Cert.KernelIdeal.Gen Cert.KernelIdeal.Proto Cert.Spec

theorem stg_eq (m : (ℓ : Loc nD τ sig) → Buf (Elt Ideal) ℓ) (ρ : Dev nD → PrngReg) (c : Dev nD) :
    xstg (F := Ideal) m ρ c = m ((c.tc : Thread nD τ).loc main_arg0) ∧ tstg (F := Ideal) m ρ c = m ((c.tc : Thread nD τ).loc main_arg1)
      ∧ wsstg (F := Ideal) m ρ c = m ((c.tc : Thread nD τ).loc main_arg2) ∧ whstg (F := Ideal) m ρ c = m ((c.tc : Thread nD τ).loc main_arg3) := by
  unfold xstg tstg wsstg whstg Proto.s₀
  refine ⟨?_, ?_, ?_, ?_⟩ <;> exact Memref.read_access_unit_zero _ _ (funext fun a => Nat.zero_mul _) _ _

theorem wholeW_finite (W : SW.Idx → EReal)
    (hb : ∀ (c : Fin 16) (i : SWb.Idx), ∃ r : ℝ, (Layout.block SWb SW 1 16 c W) i = (r : EReal)) (i : SW.Idx) :
    ∃ r : ℝ, W i = (r : EReal) := by
  obtain ⟨k, l, rfl⟩ : ∃ (k : Fin 128) (l : Fin 4096), i = ix2 k l := ⟨i 0, i 1, eq_ix2 i⟩
  obtain ⟨⟨c, j⟩, rfl⟩ := colEquiv.surjective l
  have h := hb c (ix2 k j)
  rw [blockW_apply] at h
  exact h

theorem out_block [Cert.Pre_finite_inputs_Kernel.Facts] (m : (ℓ : Loc nD τ sig) → Buf (Elt Ideal) ℓ) (ρ : Dev nD → PrngReg)
    (X : SX.Idx → EReal) (T : ST.Idx → EReal) (Ws Wsh : SW.Idx → EReal) (hpre : Cert.Pre_KernelIdeal m)
    (hagree : ∀ c : Dev nD, m ((c.tc : Thread nD τ).loc main_arg0) = Layout.block SXb SX 2 16 c X
      ∧ m ((c.tc : Thread nD τ).loc main_arg1) = T ∧ m ((c.tc : Thread nD τ).loc main_arg2) = Layout.block SWb SW 1 16 c Ws
      ∧ m ((c.tc : Thread nD τ).loc main_arg3) = Layout.block SWb SW 1 16 c Wsh) (c : Dev nD) :
    outC (F := Ideal) m ρ c = Layout.block SXb SX 2 16 c (Cert.RefSide.refOut X T Ws Wsh) := by
  have hfin := fun d : Dev nD => Cert.Fin.finite_of_pre _ _ _ _ (hpre d)
  have hXf := Cert.Fin.whole_finite X fun d i => (hagree d).1 ▸ (hfin d).1 i
  have hTf : ∀ i, ∃ r : ℝ, T i = (r : EReal) := fun i => (hagree c).2.1 ▸ (hfin c).2.1 i
  have hWsf := wholeW_finite Ws fun d i => (hagree d).2.2.1 ▸ (hfin d).2.2.1 i
  have hWshf := wholeW_finite Wsh fun d i => (hagree d).2.2.2 ▸ (hfin d).2.2.2 i
  funext i
  obtain ⟨b, s, j, rfl⟩ : ∃ (b : Fin 4) (s : Fin 512) (j : Fin 256), i = ix3 b s j := ⟨i 0, i 1, i 2, eq_ix3 i⟩
  refine Eq.trans ?_ ((bridge X T Ws Wsh hXf hTf hWsf hWshf c b s j).trans
    ((Cert.RefSide.refOut_at X T Ws Wsh b s _).symm.trans (blockX_apply (Cert.RefSide.refOut X T Ws Wsh) c b s j).symm))
  unfold outC partC
  rw [(stg_eq m ρ c).2.1.trans (hagree c).2.1, (stg_eq m ρ c).2.2.1.trans (hagree c).2.2.1,
    (stg_eq m ρ c).2.2.2.trans (hagree c).2.2.2]
  simp only [fun d => (stg_eq m ρ d).1.trans (hagree d).1]
  exact KVal.kout_at (fun d => Layout.block SXb SX 2 16 d X) T _ _ c b s j

theorem out_is_block [Cert.Pre_finite_inputs_Kernel.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 4096]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3)))
    (c : Dev Cert.KernelIdeal.nD) :
    Cert.KernelIdeal.Proto.outC (F := Ideal) m ρ c
      = Layout.block ⟨3, ![4, 512, 256]⟩ ⟨3, ![4, 512, 4096]⟩ 2 16 c
          (Cert.RefSide.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) :=
  out_block m ρ _ _ _ _ hpre hagree c

end Cert.KernelIdeal.AlgV

end
-- ==== Proof.Ghost.lean ====
import proofs.«900769_g7700000000000770_dist_diff_adaln_cshard_i_b4_s512_c256_v7x_i16_bf16_1_alg».proof.Proof.Cells

noncomputable section

namespace Cert.KernelIdeal.Proto

open Cert.KernelIdeal Cert.KernelIdeal.Gen Cert.KernelIdeal.Ring
open Idealize.ShloMosaic Idealize.ShloMosaic.TcCoe Idealize.ShloMosaic.Rounds
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

def lane (n : ℕ) : Fin 15 := ⟨n % 15, Nat.mod_lt _ (by decide)⟩

def remR (c : Dev nD) : ℕ → CellTallies nD τ sig Unit
  | 0 => 0
  | r + 1 => remR c r + tallyAt (recvCell (up c (lane (14 - r))) (lane (14 - r))) () N

def remB (c : Dev nD) : ℕ → CellTallies nD τ sig Unit
  | 0 => remR c 15
  | r + 1 => remB c r + tallyAt (barCell (up c (lane (14 - r)))) () 1

def O₀ (c : Dev nD) : CellTallies nD τ sig Unit := remB c 15

def L (g : GSem nD τ sig) : Finset Unit := if g.1.2 = .tc then {()} else ∅

def lv (g : GSem nD τ sig) (_ : Unit) : ℕ := if g.2 = .reg barS then 1 else if (recvLane g.2).isSome then 2 else 0

theorem L_of_ne (g : GSem nD τ sig) (h : g.1.2 ≠ .tc) : L g = ∅ := if_neg h

abbrev CK : Type := Option (Bool × Fin 15)

def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

def payToks (c : Dev nD) : sProp 𝕄 :=
  iprop((bigSep Finset.univ fun i : Fin 15 => dutyTok ER (barCell (up c i)) 0 i)
    ∗ (bigSep Finset.univ fun k : Fin 15 => dutyTok ER (recvCell (up c k) k) 0 (0 : Fin 15))
    ∗ (bigSep Finset.univ fun k : Fin 15 => dutyTok ER (sendCell c k) 0 (0 : Fin 15)))

def linear (c : Dev nD) : sProp 𝕄 :=
  iprop((bigSep Finset.univ fun j : CK => atPos ER (kcell (c, j)) 0 ∅ 0) ∗ payToks c)

def ghost (K : Dev nD × CK → ℕ) (c : Dev nD) : sProp 𝕄 := iprop(records m ρ K ∗ linear c)

def creds (c : Dev nD) : sProp 𝕄 :=
  iprop(cred (tallyAt (barCell c) () 15) ∗ bigSep Finset.univ fun k : Fin 15 => cred (tallyAt (recvCell c k) () N))

def start (c : Dev nD) : sProp 𝕄 :=
  iprop((∃ K, ghost m ρ K c) ∗ creds c ∗ levAts L lv)

def scrAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m ρ c ∗ scrAny c)

def Φ₁ (c : Dev nD) : sProp 𝕄 := iprop(scrAny c ∗ bigSep Finset.univ fun x : Bool × Fin 15 => semVal ((c : Thread nD τ), osem x) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => wsstg m ρ c
    | ⟨3, _⟩ => whstg m ρ c
    | ⟨4, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.Sched.lean ====
import proofs.«900769_g7700000000000770_dist_diff_adaln_cshard_i_b4_s512_c256_v7x_i16_bf16_1_alg».proof.Proof.Cells

noncomputable section

namespace Cert.KernelIdeal.Proto

open Cert.KernelIdeal
open Idealize.ShloMosaic Idealize.ShloMosaic.Rounds
open Idealize.SL Idealize.SL.BI

variable {F : FTy → Type} [FloatOps F]

variable (m : (ℓ : Loc nD τ sig) → Buf (Elt F) ℓ) (ρ : Dev nD → PrngReg)

theorem send_ne_bar (k : Fin 15) : (SemLoc.dma (sendS k) : SemLoc sig) ≠ .reg barS := nofun
theorem recv_ne_bar (k : Fin 15) : (SemLoc.dma (recvS k) : SemLoc sig) ≠ .reg barS := nofun

theorem duties_bar (c : Dev nD) : (sched (F := F) m ρ).duties (barCell c) 0 = Finset.univ := by
  dsimp only [sched]; rw [if_pos ⟨rfl, rfl⟩]; exact if_pos rfl

theorem duties_send (c : Dev nD) (k : Fin 15) : (sched (F := F) m ρ).duties (sendCell c k) 0 = {0} := by
  dsimp only [sched]; rw [if_pos ⟨rfl, rfl⟩, if_neg (send_ne_bar k)]
  exact if_pos (.inl (by rw [sendLane_send]; rfl))

theorem duties_recv (c : Dev nD) (k : Fin 15) : (sched (F := F) m ρ).duties (recvCell c k) 0 = {0} := by
  dsimp only [sched]; rw [if_pos ⟨rfl, rfl⟩, if_neg (recv_ne_bar k)]
  exact if_pos (.inr (by rw [recvLane_recv]; rfl))

theorem duties_later (g : GSem nD τ sig) : ∀ r, 1 ≤ r → (sched (F := F) m ρ).duties g r = ∅ :=
  fun r hr => by dsimp only [sched]; rw [if_neg fun h => absurd h.1 (by omega)]

theorem amount_bar (c : Dev nD) (i : Fin 15) : (sched (F := F) m ρ).amount (barCell c) 0 i = 1 := by dsimp only [sched]; exact if_pos rfl
theorem amount_send (c : Dev nD) (k : Fin 15) (d : Fin 15) : (sched (F := F) m ρ).amount (sendCell c k) 0 d = N := by
  dsimp only [sched]; exact if_neg (send_ne_bar k)
theorem amount_recv (c : Dev nD) (k : Fin 15) (d : Fin 15) : (sched (F := F) m ρ).amount (recvCell c k) 0 d = N := by
  dsimp only [sched]; exact if_neg (recv_ne_bar k)

theorem expect_bar (c : Dev nD) : (sched (F := F) m ρ).expect (barCell c) 0 = 15 := by
  unfold Schedule.expect Schedule.amountOf
  rw [duties_bar, Finset.sum_congr rfl fun d _ => amount_bar m ρ c d, Finset.sum_const, Finset.card_univ, Fintype.card_fin,
    smul_eq_mul, Nat.mul_one]

theorem expect_send (c : Dev nD) (k : Fin 15) : (sched (F := F) m ρ).expect (sendCell c k) 0 = N := by
  unfold Schedule.expect Schedule.amountOf; rw [duties_send, Finset.sum_singleton, amount_send]
theorem expect_recv (c : Dev nD) (k : Fin 15) : (sched (F := F) m ρ).expect (recvCell c k) 0 = N := by
  unfold Schedule.expect Schedule.amountOf; rw [duties_recv, Finset.sum_singleton, amount_recv]

theorem payload_bar (c : Dev nD) (i : Fin 15) : (sched (F := F) m ρ).payload (barCell c) 0 i = barPay c i := by
  dsimp only [sched]; exact if_pos rfl

theorem payload_send (c : Dev nD) (k : Fin 15) (d : Fin 15) : (sched (F := F) m ρ).payload (sendCell c k) 0 d = sendPay m ρ c k := by
  dsimp only [sched]; rw [if_neg (send_ne_bar k), recvLane_send, sendLane_send]

theorem payload_recv (c : Dev nD) (k : Fin 15) (d : Fin 15) : (sched (F := F) m ρ).payload (recvCell c k) 0 d = recvPay m ρ c k := by
  dsimp only [sched]; rw [if_neg (recv_ne_bar k), recvLane_recv]

theorem rest_bar (c : Dev nD) :
    bigSep ((sched (F := F) m ρ).duties (barCell c) 0 \ ∅) (fun d => (sched (F := F) m ρ).payload (barCell c) 0 d)
      = bigSep Finset.univ (fun i : Fin 15 => barPay (F := F) c i) := by
  rw [Finset.sdiff_empty, duties_bar]
  exact bigSep_congr fun i _ => payload_bar m ρ c i

theorem rest_send (c : Dev nD) (k : Fin 15) :
    bigSep ((sched (F := F) m ρ).duties (sendCell c k) 0 \ ∅) (fun d => (sched (F := F) m ρ).payload (sendCell c k) 0 d) = sendPay m ρ c k := by
  rw [Finset.sdiff_empty, duties_send, bigSep_singleton, payload_send]

theorem rest_recv (c : Dev nD) (k : Fin 15) :
    bigSep ((sched (F := F) m ρ).duties (recvCell c k) 0 \ ∅) (fun d => (sched (F := F) m ρ).payload (recvCell c k) 0 d) = recvPay m ρ c k := by
  rw [Finset.sdiff_empty, duties_recv, bigSep_singleton, payload_recv]

end Cert.KernelIdeal.Proto

end
-- ==== Proof.Levels.lean ====
import proofs.«900769_g7700000000000770_dist_diff_adaln_cshard_i_b4_s512_c256_v7x_i16_bf16_1_alg».proof.Proof.Ghost
import proofs.«900769_g7700000000000770_dist_diff_adaln_cshard_i_b4_s512_c256_v7x_i16_bf16_1_alg».proof.Proof.Sched

noncomputable section

namespace Cert.KernelIdeal.Proto

open Cert.KernelIdeal Cert.KernelIdeal.Ring
open Idealize.ShloMosaic Idealize.ShloMosaic.TcCoe
open Idealize.SL Idealize.SL.BI
open scoped Idealize.SL.BI
open Idealize.SL.BI.BIBase Idealize.SL.BI.Laws Idealize.SL.ProofMode

variable {F : FTy → Type} [FloatOps F]

local notation "𝕄" => MT nD τ sig Unit (Elt F) ℕ UU ℕ

variable (m : (ℓ : Loc nD τ sig) → Buf (Elt F) ℓ) (ρ : Dev nD → PrngReg)

-- A cell owed while copies remain is a receive cell up the ring, at level 2.
theorem remR_pos {c : Dev nD} {r : ℕ} {g : GSem nD τ sig} {u : Unit} (h : 0 < remR c r g u) : u ∈ L g ∧ 1 < lv g u := by
  induction r with
  | zero => exact absurd h (Nat.lt_irrefl 0)
  | succ r ih =>
    rw [remR] at h
    rcases Pipeline.add_pos_cases h with h | h
    · exact ih h
    · obtain ⟨rfl, rfl⟩ := Pipeline.tallyAt_pos h
      refine ⟨Finset.mem_singleton_self _, ?_⟩
      dsimp only [lv]; rw [if_neg (recv_ne_bar _), recvLane_recv]; exact Nat.lt_succ_self 1

-- With signals still owed too, a cell owed is such a receive cell or a barrier cell, at level 1 or more.
theorem remB_pos {c : Dev nD} {r : ℕ} {g : GSem nD τ sig} {u : Unit} (h : 0 < remB c r g u) : u ∈ L g ∧ 0 < lv g u := by
  induction r with
  | zero => exact (remR_pos h).imp_right Nat.zero_lt_of_lt
  | succ r ih =>
    rw [remB] at h
    rcases Pipeline.add_pos_cases h with h | h
    · exact ih h
    · obtain ⟨rfl, rfl⟩ := Pipeline.tallyAt_pos h
      refine ⟨Finset.mem_singleton_self _, ?_⟩
      dsimp only [lv]; rw [if_pos rfl]; exact Nat.one_pos

-- A transfer cell that is no receive cell sits at level 0, below every cell the device can owe.
omit [FloatOps F] in
theorem mayWait_stage (c : Dev nD) (q : DmaSem sig) (hq : recvLane (.dma q) = none) (O : CellTallies nD τ sig Unit)
    (hO : O = O₀ c ∨ O = 0) : (levAts L lv : sProp 𝕄) ⊢ MayWait (c : Thread nD τ) (.dma q) () O := by
  rcases hO with rfl | rfl
  · refine Pipeline.mayWait_of_levAts (Finset.mem_singleton_self _) fun g u h => ?_
    rw [show lv ((c : Thread nD τ), .dma q) () = 0 from by dsimp only [lv]; rw [if_neg (fun h => by cases h), hq]; rfl]
    exact remB_pos h
  · rw [MayWait_zero]; iintro -; iempintro

-- The barrier cell sits at level 1, below the receive cells, which are all the device then owes.
omit [FloatOps F] in
theorem mayWait_bar (c : Dev nD) : (levAts L lv : sProp 𝕄) ⊢ MayWait (c : Thread nD τ) (.reg barS) () (remR c 15) :=
  Pipeline.mayWait_of_levAts (Finset.mem_singleton_self _) fun _ _ h => remR_pos h

-- Copy by copy, what the devices owe lane k's receive cell one step up the ring is, the ring turned back, one credit for that cell's owner.
theorem credR (c : Dev nD) (r : ℕ) : (Pipeline.launchCred (fun d => remR d r) c : sProp 𝕄)
    ⊢ bigSep (Finset.range r) fun i => cred (tallyAt (recvCell c (lane (14 - i))) () N) := by
  induction r with
  | zero => rw [Finset.range_zero]; exact Entails.of_eq (Pipeline.launchCred_zero c)
  | succ r ih =>
    simp only [remR]
    rw [Pipeline.launchCred_add, Finset.range_add_one, bigSep_insert Finset.notMem_range_self]
    exact (sep_mono_left ih).trans ((sep_mono_right
      (Pipeline.launchCred_tallyAt _ (up · _) (dn · _) (up_dn · _) (dn_up · _) () N c)).trans sep_symm)

-- Each signal still owed is a unit on a barrier cell up the ring: r of them credit every barrier cell r units.
theorem credB (c : Dev nD) (r : ℕ) : (Pipeline.launchCred (fun d => remB d r) c : sProp 𝕄)
    ⊢ iprop(cred (tallyAt (barCell c) () r) ∗ Pipeline.launchCred (fun d => remR d 15) c) := by
  induction r with
  | zero => rw [tallyAt_zero, cred_zero]; exact Idealize.SL.BI.emp_sep.2
  | succ r ih =>
    simp only [remB]
    rw [Pipeline.launchCred_add, ← tallyAt_add]
    exact (sep_mono_left ih).trans ((sep_mono_right
      (Pipeline.launchCred_tallyAt _ (up · _) (dn · _) (up_dn · _) (dn_up · _) () 1 c)).trans
        (sep_right_comm.1.trans (sep_mono_left (cred_add _ _).2)))

-- The lanes 14 - i, i < 15, are the fifteen lanes, each once.
theorem creds_of_launch (c : Dev nD) : (Pipeline.launchCred O₀ c : sProp 𝕄) ⊢ creds c := by
  refine (credB c 15).trans (sep_mono_right ((credR c 15).trans (Entails.of_eq ?_)))
  rw [show Finset.range 15 = Finset.univ.map ⟨fun k : Fin 15 => 14 - k.val, fun k k' => by revert k k'; decide⟩ from by decide,
    bigSep_map]
  exact bigSep_congr fun k _ => congrArg (fun k => cred (tallyAt (recvCell c k) () N)) (by revert k; decide)

end Cert.KernelIdeal.Proto

end
-- ==== Proof.Launch.lean ====
import proofs.«900769_g7700000000000770_dist_diff_adaln_cshard_i_b4_s512_c256_v7x_i16_bf16_1_alg».proof.Proof.Ghost
import proofs.«900769_g7700000000000770_dist_diff_adaln_cshard_i_b4_s512_c256_v7x_i16_bf16_1_alg».proof.Proof.Sched
import proofs.«900769_g7700000000000770_dist_diff_adaln_cshard_i_b4_s512_c256_v7x_i16_bf16_1_alg».proof.Proof.Levels

noncomputable section

namespace Cert.KernelIdeal.Proto

open Cert.KernelIdeal Cert.KernelIdeal.Gen Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem la_osem_ne_bar (x : Bool × Fin 15) : osem x ≠ .reg barS := by
  rcases x with ⟨_ | _, k⟩
  exacts [send_ne_bar k, recv_ne_bar k]

theorem la_osem_injective : Function.Injective osem := by decide

theorem la_csem_injective : Function.Injective csem := by
  rintro (_ | x) (_ | x') h
  · rfl
  · exact absurd h.symm (la_osem_ne_bar x')
  · exact absurd h (la_osem_ne_bar x)
  · exact congrArg some (la_osem_injective h)

theorem kcell_injective : Function.Injective (kcell : Dev nD × CK → GSem nD τ sig) := by
  rintro ⟨c, j⟩ ⟨c', j'⟩ h
  exact Prod.ext (congrArg (Prod.fst ∘ Prod.fst) h) (la_csem_injective (congrArg Prod.snd h))
def ringCells : Finset (GSem nD τ sig) := Finset.univ.map ⟨kcell, kcell_injective⟩

abbrev la_TK : Type := Fin 15 ⊕ (Bool × Fin 15)

-- Round 0's duty tokens under the device that pays each: its signal to the barrier cell i + 1 places up, its own send cells, the receive cells its copies land on.
abbrev tokOf (ct : Dev nD × la_TK) : GSem nD τ sig × ℕ × Fin 15 := match ct.2 with
  | .inl i => (barCell (up ct.1 i), 0, i)
  | .inr x => (kcell (if x.1 then up ct.1 x.2 else ct.1, some x), 0, 0)

-- Going up the ring by a fixed lane is undone by going down by it.
theorem la_up_inj {c c' : Dev nD} {k : Fin 15} (h : up c k = up c' k) : c = c' :=
  (dn_up c k).symm.trans ((congrArg (dn · k) h).trans (dn_up c' k))
theorem la_tokOf_injective : Function.Injective (tokOf : Dev nD × la_TK → GSem nD τ sig × ℕ × Fin 15) := by
  rintro ⟨c, i | x⟩ ⟨c', i' | x'⟩ h
  · obtain rfl : i = i' := congrArg (Prod.snd ∘ Prod.snd) h
    exact Prod.ext (la_up_inj (congrArg (Prod.fst ∘ Prod.fst ∘ Prod.fst) h)) rfl
  · exact absurd (congrArg (Prod.snd ∘ Prod.fst) h).symm (la_osem_ne_bar x')
  · exact absurd (congrArg (Prod.snd ∘ Prod.fst) h) (la_osem_ne_bar x)
  · obtain rfl : x = x' := la_osem_injective (congrArg (Prod.snd ∘ Prod.fst) h)
    have hd := congrArg (Prod.fst ∘ Prod.fst ∘ Prod.fst) h
    rcases x with ⟨_ | _, k⟩
    exacts [Prod.ext hd rfl, Prod.ext (la_up_inj hd) rfl]
def ringToks : Finset (GSem nD τ sig × ℕ × Fin 15) := Finset.univ.map ⟨tokOf, la_tokOf_injective⟩

def u₀ : UU :=
  (initOf (Pipeline.cells cfgs cellOf_inj) (Pipeline.launchToks cfgs cellOf_inj), initOf ringCells ringToks)

-- A device's share of the launch: its thirty-one cells each in state A, that each has reached round 0, and what stays with it.
def G₁ (A : GSem nD τ sig → sProp 𝕄) (c : Dev nD) : sProp 𝕄 :=
  iprop((bigSep Finset.univ fun j : CK => A (kcell (c, j)))
    ∗ (bigSep Finset.univ fun j : CK => reached ER (kcell (c, j)) 0) ∗ linear c)

def G (c : Dev nD) : sProp 𝕄 := G₁ (fun g => roundState ER (sched m ρ) g 0) c

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : CK => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by
      unfold payToks; rw [bigSep_univ_sum, bigSep_univ_prod, bigSep_univ_eq_bigSepL [true, false] (by decide) (by decide)]; rfl
  refine (Rounds.fund ER (sched m ρ) ringCells ringToks).trans (BI.bupd_mono ?_)
  rw [hX, hX, hX, hT]; unfold G G₁ linear; simp only [bigSep_sep']
  show _ ⊢ (_ : sProp 𝕄)
  iintro ⟨Hst, Hr, Hat, Htok⟩; iframe

-- A device's thirty own counters and its barrier counter are the counters of its thirty-one cells.
theorem sems0_eq (c : Dev nD) : (iprop(Pipeline.ownSems0 osem c ∗ unscopedSems0 c) : sProp 𝕄)
      ⊢ bigSep Finset.univ fun j : CK => semVal (kcell (c, j)) 0 := by
  unfold unscopedSems0
  rw [show (Finset.univ : Finset CK) = insert none (Finset.univ.map .some) from by ext x; cases x <;> simp,
    bigSep_insert (by simp), bigSep_map, bigSep_eq_bigSepL_of_eq [SemLoc.reg barS] (by decide) (by decide)]
  exact sep_symm

-- Each cell's invariant is allocated from its counter and its round state at zero.
theorem core_alloc (c : Dev nD) :
    (iprop(Pipeline.ownSems0 osem c ∗ unscopedSems0 c ∗ G m ρ c) : sProp 𝕄)
      ⊢ |={Set.univ}=> G₁ (fun g => iprop(∃ κ : ℕ, cellInv ER (sched m ρ) κ g)) c := by
  unfold G G₁
  iintro ⟨Hos, Hus, Hst, Hrest⟩
  ihave Hv := (sems0_eq (F := F) c) $$ [Hos Hus]
  · iframe
  imod (show iprop((bigSep Finset.univ fun j : CK => semVal (kcell (c, j)) 0) ∗ bigSep Finset.univ fun j : CK => roundState ER (sched m ρ) (kcell (c, j)) 0)
      ⊢ (|={Set.univ}=> bigSep Finset.univ fun j : CK => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · iframe
  imodintro; iframe

theorem la_bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

-- The invariants' names gathered into one function of the cell, every device keeps a copy of the persistent records.
theorem regroup : (bigSep Finset.univ fun c : Dev nD => G₁ (fun g => iprop(∃ κ : ℕ, cellInv ER (sched m ρ) κ g)) c : sProp 𝕄)
      ⊢ bigSep Finset.univ (G' m ρ) := by
  simp only [G₁, bigSep_sep']
  rw [← bigSep_univ_prod (fun ck : Dev nD × CK => iprop(∃ κ : ℕ, cellInv ER (sched m ρ) κ (kcell ck))),
    ← bigSep_univ_prod (fun ck : Dev nD × CK => (reached ER (kcell ck) 0 : sProp 𝕄))]
  iintro ⟨HI, #HR, Hlin⟩
  ihave HK := (BI.bigSep_exists_pi Finset.univ _) $$ HI
  icases HK with ⟨%K, #HI⟩
  iapply (la_bigSep_with_persistent (R := records m ρ K) (Φ := linear) fun c _ => by
    unfold G' ghost; iintro H; iexists K; iexact H)
  unfold records; iframe HI HR Hlin

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := fun c w => by unfold Dat.share; split <;> rfl)
    (hdistinct := winFacts0.arr_inj)
    (O₀ := O₀) (howed₀ := fun _ => rfl) (howedN := fun _ => rfl)
    (L := L) (lv := lv) (hL := L_of_ne) (hwaits := fun c => Pipeline.cellsWaits_intro cfgs (dats m ρ) () 0 c fun w s t =>
      mayWait_stage c _ (by fin_cases w <;> fin_cases s <;> decide) _ (by
        rcases t with ⟨_ | _, ht⟩
        exacts [.inl rfl, .inr rfl]))
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro; iframe)
    (hglob := ((bigSep_mono fun c _ => core_alloc m ρ c).trans (bigSep_fupd _ _)).trans (BI.fupd_mono (regroup m ρ)))
    (hA := fun _ _ => rfl) (hpf := fun _ k => k.elim0)
    (X := start m ρ) (Y := fun _ => iprop(emp)) (Z := fun _ => iprop(emp))
    (hX := fun c => by
      iintro ⟨-, Hlev, Hcr, -, HG⟩
      ihave Hc := (creds_of_launch (F := F) c) $$ Hcr
      imodintro
      unfold start G'
      iframe)
    (hin := fun c => by
      rw [show (dats m ρ 0 c).Φ 0 = Φ₀ m ρ c from rfl, scopedRest0_eq]
      unfold Φ₀ scrAny
      iintro ⟨Hs, -, ⟨%f, Hr⟩⟩
      iframe Hs; iexists f; iexact Hr)
    (hout := fun c => by
      rw [show (dats m ρ 0 c).Φ (Fin.last cfg0.N) = Φ₁ c from rfl, scopedRest0_eq]
      unfold Φ₁ scrAny Pipeline.ownSems0
      iintro ⟨Hr, Hz⟩
      iframe)
    (QY := fun _ _ => True)
    (hY := fun c s' => by
      iintro ⟨-, -, HSI⟩
      imodintro
      isplitr; · ipureintro; trivial
      iexact HSI)
    (hQ := fun _ h c w => (h c).1 w)

/-- An input window's array ends as it began. -/
theorem finalA_in (c : Dev nD) (w : Fin 5) (hw : (cfg0.win w).isOut = false) :
    finalA m ρ c w = (s₀ m ρ).mem ((cfg0.win w).arr.view.loc (c : Thread nD τ)) :=
  (dats (F := F) m ρ 0 c).arrAt_in w hw _

theorem finalA_out (c : Dev nD) : finalA m ρ c (4 : Fin 5) = outC m ρ c := by
  unfold finalA
  rw [show cfg0.N = (t₀ : Fin cfg0.N).val + 1 from rfl, Dat.arrAt_succ, if_pos (flush0_4 t₀)]
  exact Memref.write_access_unit_zero_univ (Elt F) main_v1 (funext fun a => Nat.zero_mul _) _ _ _

end Cert.KernelIdeal.Proto

end
-- ==== Proof.Lanes.lean ====
import proofs.«900769_g7700000000000770_dist_diff_adaln_cshard_i_b4_s512_c256_v7x_i16_bf16_1_alg».proof.Proof.Ghost
import Idealize.ShloMosaic.Lib.ReduceScatter.Rules

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def fromEnd (Φ : Fin 15 → sProp 𝕄) : ℕ → sProp 𝕄
  | 0 => iprop(emp)
  | r + 1 => iprop(fromEnd Φ r ∗ Φ (lane (14 - r)))

def fromStart (Φ : Fin 15 → sProp 𝕄) : ℕ → sProp 𝕄
  | 0 => iprop(emp)
  | j + 1 => iprop(fromStart Φ j ∗ Φ (lane j))

omit [FloatOps F] in
theorem lane_of_eq {j : ℕ} {i : Fin 15} (h : i.val = j) : lane j = i :=
  Fin.ext (h ▸ Nat.mod_eq_of_lt i.isLt)
omit [FloatOps F] in
theorem lane_of_add {r : ℕ} {i : Fin 15} (h : r + i.val = 14) : lane (14 - r) = i := lane_of_eq (by omega)

omit [FloatOps F] in
theorem fromEnd_succ (Φ : Fin 15 → sProp 𝕄) (r : ℕ) (i : Fin 15) (h : r + i.val = 14) : fromEnd Φ (r + 1) = iprop(fromEnd Φ r ∗ Φ i) := by
  rw [← lane_of_add h]; rfl
omit [FloatOps F] in
theorem fromStart_succ (Φ : Fin 15 → sProp 𝕄) (j : ℕ) (i : Fin 15) (h : i.val = j) : fromStart Φ (j + 1) = iprop(fromStart Φ j ∗ Φ i) := by
  rw [← lane_of_eq h]; rfl

omit [FloatOps F] in
theorem eq_of_equiv {P Q : sProp 𝕄} (h : P ⊣⊢ Q) : P = Q := Idealize.SL.BI.Entails.antisymm h.mp h.mpr

omit [FloatOps F] in
/-- A product built one factor a step is the product over the steps taken. -/
theorem seq_range {G Ψ : ℕ → sProp 𝕄} (h0 : G 0 = iprop(emp)) (hs : ∀ n, G (n + 1) = iprop(G n ∗ Ψ n)) :
    ∀ n, G n = bigSep (Finset.range n) Ψ
  | 0 => h0
  | n + 1 => by rw [hs, seq_range h0 hs n, ReduceScatter.bigSep_range_succ]; exact eq_of_equiv sep_comm

omit [FloatOps F] in
/-- Reading the lanes from the other end permutes them. -/
theorem bigSep_rev (Φ : Fin 15 → sProp 𝕄) : (bigSep Finset.univ fun i => Φ (rev i)) = bigSep Finset.univ Φ :=
  (bigSep_univ_equiv ⟨rev, rev, rev_rev, rev_rev⟩ Φ).symm

omit [FloatOps F] in
theorem fromStart_all (Φ : Fin 15 → sProp 𝕄) : fromStart Φ 15 ⊣⊢ bigSep Finset.univ Φ := by
  rw [seq_range (G := fromStart Φ) (Ψ := fun n => Φ (lane n)) rfl (fun _ => rfl) 15, ← ReduceScatter.Dat.bigSep_fin_range]
  exact .of_eq (bigSep_congr fun i _ => congrArg Φ (lane_of_eq rfl))
omit [FloatOps F] in
theorem fromEnd_all (Φ : Fin 15 → sProp 𝕄) : fromEnd Φ 15 ⊣⊢ bigSep Finset.univ Φ := by
  rw [seq_range (G := fromEnd Φ) (Ψ := fun n => Φ (lane (14 - n))) rfl (fun _ => rfl) 15, ← ReduceScatter.Dat.bigSep_fin_range, ← bigSep_rev Φ]
  exact .of_eq (bigSep_congr fun i _ => congrArg Φ (lane_of_eq rfl))

omit [FloatOps F] in
theorem remB_succ (c : Dev nD) (r : ℕ) (i : Fin 15) (h : r + i.val = 14) : remB c (r + 1) = remB c r + tallyAt (barCell (up c i)) () 1 := by
  rw [← lane_of_add h]; rfl
omit [FloatOps F] in
theorem remR_succ (c : Dev nD) (r : ℕ) (i : Fin 15) (h : r + i.val = 14) : remR c (r + 1) = remR c r + tallyAt (recvCell (up c i) i) () N := by
  rw [← lane_of_add h]; rfl

end Cert.KernelIdeal.Proto

end
-- ==== Proof.StepsDefs.lean ====
import proofs.«900769_g7700000000000770_dist_diff_adaln_cshard_i_b4_s512_c256_v7x_i16_bf16_1_alg».proof.Proof.Ghost
import proofs.«900769_g7700000000000770_dist_diff_adaln_cshard_i_b4_s512_c256_v7x_i16_bf16_1_alg».proof.Proof.Lanes

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The records hold every cell's invariant, -/
theorem records_cell (K : Dev nD × CK → ℕ) (ck : Dev nD × CK) : records m ρ K ⊢ cellInv ER (sched m ρ) (K ck) (kcell ck) := by
  unfold records
  exact (Idealize.SL.BI.sep_and.trans Idealize.SL.BI.and_elimL).trans (bigSep_elim (Finset.mem_univ ck))
/-- and that every cell has reached round 0. -/
theorem records_reached (K : Dev nD × CK → ℕ) (ck : Dev nD × CK) : records m ρ K ⊢ reached ER (kcell ck) 0 := by
  unfold records
  exact (Idealize.SL.BI.sep_and.trans Idealize.SL.BI.and_elimR).trans (bigSep_elim (Finset.mem_univ ck))

def owesAny (c : Dev nD) (O : CellTallies nD τ sig Unit) : sProp 𝕄 := iprop(∃ W, owes (c : Thread nD τ) O W)

def slotAny (c : Dev nD) (s : Fin 16) : sProp 𝕄 := iprop(∃ f, slotPts c s fullShare f)

def ΦSig (c : Dev nD) (i : Fin 15) : sProp 𝕄 := iprop(dutyTok ER (barCell (up c i)) 0 i ∗ slotAny c (slotOf (rev i)))
def SigSt (c : Dev nD) (r : ℕ) : sProp 𝕄 := iprop(fromEnd (ΦSig (F := F) c) r ∗ owesAny c (remB c r))

def ΦSend (c : Dev nD) (k : Fin 15) : sProp 𝕄 :=
  iprop(dutyTok ER (sendCell c k) 0 (0 : Fin 15) ∗ dutyTok ER (recvCell (up c k) k) 0 (0 : Fin 15) ∗ slotAny (up c k) (slotOf k)
    ∗ slotPts c 0 (laneShare k) (lift (partC m ρ c)))
def ΦCred (c : Dev nD) (k : Fin 15) : sProp 𝕄 := cred (tallyAt (sendCell c k) () N)
def SendSt (c : Dev nD) (r j : ℕ) : sProp 𝕄 :=
  iprop(fromEnd (ΦSend m ρ c) r ∗ owesAny c (remR c r) ∗ fromStart (ΦCred (F := F) c) j)

def ΦWS (c : Dev nD) (k : Fin 15) : sProp 𝕄 := iprop(atPos ER (sendCell c k) 0 ∅ 0 ∗ cred (tallyAt (sendCell c k) () N))
def ΦDS (c : Dev nD) (k : Fin 15) : sProp 𝕄 := iprop(slotPts c 0 (laneShare k) (lift (partC m ρ c)) ∗ semVal (sendCell c k) 0)
def ΦWR (c : Dev nD) (k : Fin 15) : sProp 𝕄 := iprop(atPos ER (recvCell c k) 0 ∅ 0 ∗ cred (tallyAt (recvCell c k) () N))
def ΦDR (c : Dev nD) (k : Fin 15) : sProp 𝕄 :=
  iprop(slotPts c (slotOf k) fullShare (lift (partC m ρ (dn c k))) ∗ semVal (recvCell c k) 0)
def WaitSt (c : Dev nD) (rS jS rR jR : ℕ) : sProp 𝕄 :=
  iprop(fromEnd (ΦWS (F := F) c) rS ∗ fromStart (ΦDS m ρ c) jS ∗ fromEnd (ΦWR (F := F) c) rR ∗ fromStart (ΦDR m ρ c) jR ∗ owesAny c 0)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Proto

end
-- ==== Proof.StepSig.lean ====
import proofs.«900769_g7700000000000770_dist_diff_adaln_cshard_i_b4_s512_c256_v7x_i16_bf16_1_alg».proof.Proof.StepsDefs
import proofs.«900769_g7700000000000770_dist_diff_adaln_cshard_i_b4_s512_c256_v7x_i16_bf16_1_alg».proof.Proof.Sched

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

theorem sig_barPay_intro (c : Dev nD) (i : Fin 15)
    (f : Buf (Elt F) ((slotM (slotOf (rev i)) : Memref sig .tc .vmem S8x512 .f32).view.loc (c : Thread nD τ))) :
    iprop(slotPts c (slotOf (rev i)) fullShare f ∗ reached ER (recvCell c (rev i)) 0)
      ⊢ (sched (F := F) m ρ).payload (barCell (up c i)) 0 i := by
  rw [payload_bar]; unfold barPay; rw [up_up_rev]
  iintro ⟨H, #Hr⟩
  isplitl [H]; · iexists f; iexact H
  iexact Hr

theorem signal_step (c : Dev nD) (r : ℕ) (i : Fin 15) (h : r + i.val = 14) {k' : ℕ} (hk' : k' = 1)
    {α : Type} {Q : α → sProp 𝕄} {k : PUnit → Prog (TpuEff nD τ sig (Elt F) Λ₀ .tc) α} :
    records m ρ K
      ⊢ iprop(SigSt (F := F) c (r + 1) -∗ (SigSt (F := F) c r -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((up c i : Dev nD) : Thread nD τ) barS k') k) Q) := by
  subst hk'
  unfold SigSt
  rw [fromEnd_succ (ΦSig (F := F) c) r i h, remB_succ c r i h]
  unfold ΦSig owesAny slotAny
  iintro #HK ⟨⟨Hrest, Htok, ⟨%f, Hslot⟩⟩, ⟨%W, HO⟩⟩ Hk
  iapply (wp_signal 𝒱₀ ER (sched m ρ) (c : Thread nD τ) none (dst := ((up c i : Dev nD) : Thread nD τ)) (sem := barS) (r := 0) (d := i)
    (κ := K (up c i, none))
    (by rw [duties_bar]; exact Finset.mem_univ _) (amount_bar m ρ (up c i) i) () (remB c r) rfl) $$ [HO Htok Hslot]
  · isplitr
    · iapply (records_cell m ρ K (up c i, none)); iexact HK
    isplitl [HO]; · iexact HO
    isplitl [Htok]; · iexact Htok
    isplitl [Hslot]
    · iapply (sig_barPay_intro m ρ c i f)
      isplitl [Hslot]; · iexact Hslot
      iapply (records_reached m ρ K (c, some (true, rev i))); iexact HK
    iapply (records_reached m ρ K (up c i, none)); iexact HK
  iintro HO
  iapply Hk
  isplitl [Hrest]; · iexact Hrest
  iexists W; iexact HO

theorem bar_wait_step (c : Dev nD) {k' : ℕ} (hk' : k' = 15)
    (hmw : (levAts L lv : sProp 𝕄) ⊢ MayWait (c : Thread nD τ) (.reg barS) () (remR c 15))
    {α : Type} {Q : α → sProp 𝕄} {k : PUnit → Prog (TpuEff nD τ sig (Elt F) Λ₀ .tc) α} :
    iprop(records m ρ K ∗ levAts L lv ∗ cred (tallyAt (barCell c) () 15) ∗ atPos ER (barCell c) 0 ∅ 0 ∗ owesAny (F := F) c (remR c 15))
      ⊢ iprop(((owesAny (F := F) c (remR c 15) ∗ bigSep Finset.univ (fun i : Fin 15 => barPay (F := F) c i)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owesAny
  iintro ⟨#HK, Hlev, Hcred, Hat, ⟨%W, HO⟩⟩ Hk
  iapply (wp_wait_rest_token 𝒱₀ ER (sched m ρ) (c : Thread nD τ) none (wpE_semWait_eq 𝒱₀ (c : Thread nD τ) none Set.univ)
    (Set.mem_univ (K (c, none))) () (O := remR c 15) (R := 0) (T := ∅) (m := 0) (by rw [expect_bar])) $$ [Hcred HO Hlev Hat]
  · isplitr
    · iapply (records_cell m ρ K (c, none)); iexact HK
    iframe Hcred HO Hat; iapply hmw; iexact Hlev
  iintro ⟨HO, -, -, Hrest⟩
  ihave Hpays := (Entails.of_eq (rest_bar m ρ c)) $$ Hrest
  iapply Hk; iframe Hpays; iexists _; iexact HO

end Cert.KernelIdeal.Proto

end
-- ==== Proof.Slots.lean ====
import proofs.«900769_g7700000000000770_dist_diff_adaln_cshard_i_b4_s512_c256_v7x_i16_bf16_1_alg».proof.Proof.Ghost
import Idealize.ShloMosaic.Lib.Pipeline.Value
import Idealize.ShloMosaic.Rules.PointsTo
import Idealize.ShloMosaic.Lib.Writes
import Idealize.ShloMosaic.Lib.ValueLayout

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem slot_set (k : Fin 16) : (slotM k).view.set = (slotR k).set :=
  (View.set_reshape _ _).trans (View.set_slice_whole _ _)

/-- Slot `k` is the indices whose first coordinate is `k`. -/
theorem mem_slot (k : Fin 16) (i : S16x8x512.Idx) :
    i ∈ (slotM k).view.set ↔ (i 0).val = k.val := by
  refine (iff_of_eq (congrArg (i ∈ ·) (slot_set k))).trans (Rect.mem_set_unit.trans ⟨fun h => ?_, fun h a => ?_⟩)
  · have h0 : k.val ≤ (i 0).val ∧ (i 0).val < k.val + 1 := h 0
    omega
  · match a with
    | ⟨0, _⟩ => exact ⟨h.ge, Nat.lt_succ_of_le h.le⟩
    | ⟨1, _⟩ => exact ⟨Nat.zero_le _, (i 1).isLt⟩
    | ⟨2, _⟩ => exact ⟨Nat.zero_le _, (i 2).isLt⟩

theorem slot_disjoint (k k' : Fin 16) (h : k ≠ k') :
    Disjoint (slotM k).view.set (slotM k').view.set :=
  Finset.disjoint_left.mpr fun i h1 h2 => h (Fin.ext (((mem_slot k i).mp h1).symm.trans ((mem_slot k' i).mp h2)))

theorem slots_cover :
    (Finset.univ : Finset S16x8x512.Idx)
      = (Finset.univ : Finset (Fin 16)).biUnion fun k => (slotM k).view.set :=
  (Finset.eq_univ_of_forall fun i => Finset.mem_biUnion.mpr ⟨⟨_, (i 0).isLt⟩, Finset.mem_univ _, (mem_slot _ i).mpr rfl⟩).symm

theorem univ_erase_zero : (Finset.univ : Finset (Fin 16)).erase 0
    = (Finset.univ : Finset (Fin 15)).map ⟨slotOf, fun a b h => Fin.ext (Nat.succ.inj (congrArg Fin.val h))⟩ := by
  decide

theorem scr_split (c : Dev nD) (f : Buf (Elt F) ((c : Thread nD τ).loc cc0_scratch0)) :
    (((c : Thread nD τ).loc cc0_scratch0) ↦{fullShare} f : sProp 𝕄)
      ⊣⊢ iprop(slotPts c 0 fullShare f ∗ bigSep Finset.univ (fun k : Fin 15 => slotPts c (slotOf k) fullShare f)) := by
  refine BiEntails.of_eq ?_
  show (((c : Thread nD τ).loc cc0_scratch0) ↦[Finset.univ]{fullShare} f : sProp 𝕄) = _
  rw [show (Finset.univ : Finset (Idx ((c : Thread nD τ).loc cc0_scratch0))) = _ from slots_cover,
    pointsTo_biUnion _ _ fun k _ k' _ => slot_disjoint k k', bigSep_univ_split (0 : Fin 16), univ_erase_zero, bigSep_map]
  rfl

theorem cM_setOn (M : Finset S16x8x512.Idx) : cM.view.setOn M = M :=
  Finset.map_refl

abbrev r0a : Rect S16x8x512 := Rect.unit (s := S16x8x512) ![0, 0, 0] S1x4x512.size inb_S16x8x512_S1x4x512_0_0_0
abbrev r0b : Rect S16x8x512 := Rect.unit (s := S16x8x512) ![0, 4, 0] S1x4x512.size inb_S16x8x512_S1x4x512_0_4_0

/-- A rectangle whose first axis is the one coordinate `k` lies in slot `k`. -/
theorem sl_unit_sub {o z : Fin S16x8x512.rank → ℕ} {h} (k : Fin 16) (h0 : o 0 = k.val) (h1 : z 0 = 1) :
    (Rect.unit (s := S16x8x512) o z h).set ⊆ (slotM k).view.set := fun x hx =>
  (mem_slot k x).mpr (by have := (Rect.mem_set_unit.mp hx) 0; omega)

theorem load0a_sub : cM.view.setOn r0a.toLoadRect.set
    ⊆ (slotM 0).view.set := (cM_setOn _).trans_subset (sl_unit_sub 0 rfl rfl)

theorem load0b_sub : cM.view.setOn r0b.toLoadRect.set
    ⊆ (slotM 0).view.set := (cM_setOn _).trans_subset (sl_unit_sub 0 rfl rfl)

theorem store0a_sub : (cM.access r0a).setOn Finset.univ
    ⊆ (slotM 0).view.set := (View.set_slice_whole _ _).trans_subset (sl_unit_sub 0 rfl rfl)

theorem store0b_sub : (cM.access r0b).setOn Finset.univ
    ⊆ (slotM 0).view.set := (View.set_slice_whole _ _).trans_subset (sl_unit_sub 0 rfl rfl)

theorem loadslot_sub (s : Fin 16) : cM.view.setOn (slotR s).toLoadRect.set
    ⊆ (slotM s).view.set := (cM_setOn _).trans_subset (slot_set s).ge

/-- Indices of a rank-three array agree when their three coordinates do. -/
theorem sl_ext3 {d : Fin 3 → ℕ} {x y : (a : Fin 3) → Fin (d a)} (h0 : (x 0).val = (y 0).val) (h1 : (x 1).val = (y 1).val)
    (h2 : (x 2).val = (y 2).val) : x = y := by
  funext a; apply Fin.ext
  match a with
  | ⟨0, _⟩ => exact h0
  | ⟨1, _⟩ => exact h1
  | ⟨2, _⟩ => exact h2

theorem sl_om (n : ℕ) : 0 + 1 * n = n := by omega

theorem read_slot (s : Fin 16) (v : Vec F S1x8x512 .f32) :
    cM.view.readAt (Elt F) (slotR s).toLoadRect (lift v) = v := by
  funext x
  show lift v ((slotR s).toLoadRect.idx x) = v x
  unfold lift
  exact congrArg v (sl_ext3 (Nat.lt_one_iff.mp (x 0).isLt).symm (sl_om (x 1).val) (sl_om (x 2).val))

theorem slot_emb (k : Fin 16) (p : Fin 8) (q : Fin 512) :
    (slotM k).view.emb (ix2 p q) = ix3 k p q :=
  (show (slotM k).view.emb (ix2 p q) = (slotR k).emb (ix3 (⟨0, Nat.one_pos⟩ : Fin 1) p q) from
    congrArg (slotR k).emb (reshapeEquiv_ix2_1ab _ p q)).trans (sl_ext3 rfl (sl_om p.val) (sl_om q.val))

/-- A full write through a view puts entry `y` of what is written where the view places `y`. -/
theorem sl_write_at {κ : Kind} {sp : Space} {s : Shape} {e : EltTy} (v : View sig κ sp s e) (f : v.ty.Contents (Elt F)) (w : s.Idx → Elt F e)
    {y : s.Idx} {i : v.ty.Idx} (h : v.emb y = i) :
    v.write (Elt F) f w Finset.univ i = cast (congrArg (Elt F) v.elt_eq.symm) (w y) := by
  subst h; exact View.write_emb_of_mem f w (Finset.mem_univ y)

/-- Contents that agree on slot `k` are one contents there. -/
theorem slotPts_congr (c : Dev nD) (k : Fin 16) (q : PosShare TreeShare) {f g : (cc0_scratch0 : Ref sig .tc).ty.Contents (Elt F)}
    (h : ∀ i : S16x8x512.Idx, (i 0).val = k.val → f i = g i) : slotPts c k q f ⊢ slotPts c k q g :=
  Entails.of_eq (by unfold slotPts; exact pointsTo_congr fun i hi => h i ((mem_slot k i).mp hi))

theorem slot0_stored (c : Dev nD) (f : (cc0_scratch0 : Ref sig .tc).ty.Contents (Elt F)) (x : Vec F S4x512x256 .f32) :
    slotPts c 0 fullShare ((cM.access r0b).write (Elt F)
        ((cM.access r0a).write (Elt F) f (k0_pay2 x) Finset.univ) (k0_pay3 x) Finset.univ)
      ⊢ slotPts c 0 fullShare (lift (KOut.partOf x)) := slotPts_congr c 0 _ fun i hi0 => by
  have h8 : (i 1).val < 8 := (i 1).isLt
  by_cases h : (i 1).val < 4
  · refine ((View.write_of_not_mem _ _ _ fun hm => ?_).trans ((sl_write_at (cM.access r0a) f (k0_pay2 x)
      (y := ix3 0 ⟨(i 1).val, h⟩ ⟨(i 2).val, (i 2).isLt⟩)
      (sl_ext3 hi0.symm (sl_om (i 1).val) (sl_om (i 2).val))).trans (cast_eq _ _))).trans (dif_pos h).symm
    rw [show (cM.access r0b).setOn Finset.univ = r0b.set from View.set_slice_whole _ _] at hm
    have h1 : 4 ≤ (i 1).val := ((Rect.mem_set_unit.mp hm) 1).1
    omega
  · refine Eq.trans ?_ (dif_neg h).symm
    exact (sl_write_at (cM.access r0b) _ (k0_pay3 x)
      (y := ix3 0 ⟨(i 1).val - 4, by omega⟩ ⟨(i 2).val, (i 2).isLt⟩)
      (sl_ext3 hi0.symm (show 4 + 1 * ((i 1).val - 4) = (i 1).val by omega) (sl_om (i 2).val))).trans (cast_eq _ _)

theorem landed_eq (c' : Dev nD) (k : Fin 15)
    (fd : Buf (Elt F) ((slotM (slotOf k)).view.loc (c' : Thread nD τ))) (v : Vec F S1x8x512 .f32) :
    ((slotM (slotOf k)).view.loc (c' : Thread nD τ)
        ↦[(slotM (slotOf k)).view.set]{fullShare}
          ((slotM (slotOf k)).view.write (Elt F) fd
            ((slotM 0).view.read (Elt F) (lift v)) Finset.univ) : sProp 𝕄)
      ⊢ slotPts c' (slotOf k) fullShare (lift v) := slotPts_congr c' (slotOf k) _ fun i hi0 => by
  have ej : (slotM (slotOf k)).view.emb
      (ix2 ⟨(i 1).val, (i 1).isLt⟩ ⟨(i 2).val, (i 2).isLt⟩) = i :=
    (slot_emb (slotOf k) _ _).trans (sl_ext3 hi0.symm rfl rfl)
  rw [sl_write_at _ fd _ ej, View.read_apply, slot_emb, cast_cast, cast_eq]
  rfl

/-- Sixteen slots held at sixteen contents are the buffer at some contents. -/
theorem scr_join (c : Dev nD) (f0 : (cc0_scratch0 : Ref sig .tc).ty.Contents (Elt F))
    (fk : Fin 15 → (cc0_scratch0 : Ref sig .tc).ty.Contents (Elt F)) :
    iprop(slotPts c 0 fullShare f0 ∗ bigSep Finset.univ (fun k : Fin 15 => slotPts c (slotOf k) fullShare (fk k)))
      ⊢ scrAny (F := F) c := by
  have h : _ ⊢ (_ : sProp 𝕄) := pointsTo_biUnion_join (ℓ := (c : Thread nD τ).loc cc0_scratch0) (q := fullShare) Finset.univ
    (fun k : Fin 16 => (slotM k).view.set) (Fin.cases (motive := fun _ => _) f0 fk) f0
    fun k _ k' _ => slot_disjoint k k'
  rw [← slots_cover, bigSep_univ_split (0 : Fin 16), univ_erase_zero, bigSep_map] at h
  refine h.trans ?_
  unfold scrAny
  iintro ⟨%g, -, H⟩
  iexists g
  iexact H

theorem credit_eq (s : Fin 16) : (slotM s).view.dmaCredit = N := rfl

theorem amount_eq (k : Fin 15) : (slotM (slotOf k)).view.amount (.dma (recvS k)) = N := rfl

end Cert.KernelIdeal.Proto

end
-- ==== Proof.PartsDefs.lean ====
import proofs.«900769_g7700000000000770_dist_diff_adaln_cshard_i_b4_s512_c256_v7x_i16_bf16_1_alg».proof.Proof.StepsDefs

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev barV : Sems sig S_ := SemArray.scalar (sig.barrier 0 rfl)

def inPts (c : Dev nD) : sProp 𝕄 :=
  iprop((((c : Thread nD τ).loc cc0_stg0_0) ↦{fullShare} xstg m ρ c) ∗ (((c : Thread nD τ).loc cc0_stg1_0) ↦{fullShare} tstg m ρ c)
    ∗ (((c : Thread nD τ).loc cc0_stg2_0) ↦{fullShare} wsstg m ρ c) ∗ (((c : Thread nD τ).loc cc0_stg3_0) ↦{fullShare} whstg m ρ c))

end Cert.KernelIdeal.Proto

end
-- ==== Proof.Reads.lean ====
import proofs.«900769_g7700000000000770_dist_diff_adaln_cshard_i_b4_s512_c256_v7x_i16_bf16_1_alg».proof.Proof.StepSig
import proofs.«900769_g7700000000000770_dist_diff_adaln_cshard_i_b4_s512_c256_v7x_i16_bf16_1_alg».proof.Proof.Slots
import proofs.«900769_g7700000000000770_dist_diff_adaln_cshard_i_b4_s512_c256_v7x_i16_bf16_1_alg».proof.Proof.Levels
import proofs.«900769_g7700000000000770_dist_diff_adaln_cshard_i_b4_s512_c256_v7x_i16_bf16_1_alg».proof.Proof.PartsDefs
import proofs.«900769_g7700000000000770_dist_diff_adaln_cshard_i_b4_s512_c256_v7x_i16_bf16_1_alg».proof.Proof.Gen.KernelIdeal.Skeleton

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

omit [FloatOps F] in
/-- A whole array read back is itself. -/
theorem read_x (f : (cc0_stg0_0 : Ref sig .tc).ty.Contents (Elt F)) :
    (xM : Memref sig .tc .vmem S4x512x256 .f32).view.readAt (Elt F) (Rect.unit (s := S4x512x256) ![0, 0, 0] S4x512x256.size inb_S4x512x256_S4x512x256_0_0_0).toLoadRect f = f :=
  Memref.readAt_unit_zero (Elt F) cc0_stg0_0 hz3 _ f
omit [FloatOps F] in
theorem read_t (f : (cc0_stg1_0 : Ref sig .tc).ty.Contents (Elt F)) :
    (tM : Memref sig .tc .vmem S4x128 .f32).view.readAt (Elt F) (Rect.unit (s := S4x128) ![0, 0] S4x128.size inb_S4x128_S4x128_0_0).toLoadRect f = f :=
  Memref.readAt_unit_zero (Elt F) cc0_stg1_0 hz2 _ f
omit [FloatOps F] in
theorem read_ws (f : (cc0_stg2_0 : Ref sig .tc).ty.Contents (Elt F)) :
    (wsM : Memref sig .tc .vmem S128x256 .f32).view.readAt (Elt F) (Rect.unit (s := S128x256) ![0, 0] S128x256.size inb_S128x256_S128x256_0_0).toLoadRect f = f :=
  Memref.readAt_unit_zero (Elt F) cc0_stg2_0 hz2 _ f
omit [FloatOps F] in
theorem read_wh (f : (cc0_stg3_0 : Ref sig .tc).ty.Contents (Elt F)) :
    (whM : Memref sig .tc .vmem S128x256 .f32).view.readAt (Elt F) (Rect.unit (s := S128x256) ![0, 0] S128x256.size inb_S128x256_S128x256_0_0).toLoadRect f = f :=
  Memref.readAt_unit_zero (Elt F) cc0_stg3_0 hz2 _ f

end Cert.KernelIdeal.Proto

end
-- ==== Proof.StepSend.lean ====
import proofs.«900769_g7700000000000770_dist_diff_adaln_cshard_i_b4_s512_c256_v7x_i16_bf16_1_alg».proof.Proof.StepsDefs
import proofs.«900769_g7700000000000770_dist_diff_adaln_cshard_i_b4_s512_c256_v7x_i16_bf16_1_alg».proof.Proof.Sched
import proofs.«900769_g7700000000000770_dist_diff_adaln_cshard_i_b4_s512_c256_v7x_i16_bf16_1_alg».proof.Proof.Slots

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- Lane `k`'s copy pays its send duty with the read share of slot 0, and the receive duty `k + 1` places up with the slot holding this device's block. -/
theorem send_step (c n : Dev nD) (r j : ℕ) (k : Fin 15) (hn : n = up c k) (h : r + k.val = 14) (hj : k.val = j)
    {hsc : (slotM (slotOf k) : Memref sig (Dev.tc n : Thread nD τ).2.kind .vmem S8x512 .f32).view.ref.isScScratch = false}
    {hsrc : (slotM 0 : Memref sig .tc .vmem S8x512 .f32).view.WordExact} {hdst : (slotM (slotOf k) : Memref sig .tc .vmem S8x512 .f32).view.WordExact}
    {hsem : DmaTarget.Typed .vmem (.dma (recvS k)) (.remote (Dev.tc n : Thread nD τ) (slotM (slotOf k) : Memref sig .tc .vmem S8x512 .f32) (.dma (sendS k)) hsc)}
    {α : Type} {Q : α → sProp 𝕄} {kont : PUnit → Prog (TpuEff nD τ sig (Elt F) Λ₀ .tc) α} :
    records m ρ K
      ⊢ iprop(SendSt m ρ c (r + 1) j -∗ (SendSt m ρ c r (j + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM 0 : Memref sig .tc .vmem S8x512 .f32) (.remote (Dev.tc n : Thread nD τ) (slotM (slotOf k) : Memref sig .tc .vmem S8x512 .f32) (.dma (sendS k)) hsc) (.dma (recvS k)) hsrc hdst hsem) kont) Q) := by
  subst hn
  have eΦ : ΦSend m ρ c k = iprop(dutyTok ER (sendCell c k) 0 (0 : Fin 15) ∗ dutyTok ER (recvCell (up c k) k) 0 (0 : Fin 15)
      ∗ (∃ f, slotPts (up c k) (slotOf k) fullShare f) ∗ slotPts c 0 (laneShare k) (lift (partC m ρ c))) := rfl
  have eC : ΦCred (F := F) c k = cred (tallyAt (sendCell c k) () N) := rfl
  unfold SendSt
  rw [fromEnd_succ (ΦSend m ρ c) r k h, fromStart_succ (ΦCred (F := F) c) j k hj, eΦ, eC]
  unfold owesAny slotPts
  iintro #Hrec ⟨⟨Hrest, Ht1, Ht2, ⟨%fd, Hdst⟩, Hsrc⟩, ⟨%W, HO⟩, Hcr⟩ Hk
  ihave #HI1 := (records_cell m ρ K (c, some (false, k))) $$ Hrec
  ihave #HI2 := (records_cell m ρ K (up c k, some (true, k))) $$ Hrec
  ihave #HR1 := (records_reached m ρ K (c, some (false, k))) $$ Hrec
  ihave #HR2 := (records_reached m ρ K (up c k, some (true, k))) $$ Hrec
  have hrule := wp_send_pointsTo (Γ := .empty) (defs := defs₀ (F := F)) 𝒱₀ ER (sched m ρ) (c : Thread nD τ) none
    (hsc := hsc) (hsrc := hsrc) (hdst := hdst) (hsem := hsem) (Es := Set.univ) (Q := Q)
    (src := (slotM 0 : Memref sig .tc .vmem S8x512 .f32)) (dst := (slotM (slotOf k) : Memref sig .tc .vmem S8x512 .f32))
    (c' := (Dev.tc (up c k) : Thread nD τ)) (sS := .dma (sendS k)) (sem := .dma (recvS k)) (k := kont)
    (q := laneShare k) (fs := lift (partC m ρ c)) (fd := fd) (W := W)
    (r₁ := 0) (r₂ := 0) (d₁ := (0 : Fin 15)) (d₂ := (0 : Fin 15))
    (κ₁ := K (c, some (false, k))) (κ₂ := K (up c k, some (true, k)))
    (by rw [duties_send]; exact Finset.mem_singleton_self _) (by rw [duties_recv]; exact Finset.mem_singleton_self _)
    () () N (amount_eq k) (amount_send m ρ c k 0) (amount_recv m ρ (up c k) k 0)
    (O₀ := remR c (r + 1)) (remR c r) (remR_succ c r k h)
    (by rw [payload_send]; exact Entails.refl _)
    (by rw [payload_recv]; unfold recvPay; rw [Ring.dn_up]; exact landed_eq (up c k) k fd (partC m ρ c))
  iapply hrule $$ [Ht1 Ht2 Hdst Hsrc HO] [Hk Hrest Hcr]
  · isplitl []; · iexact HI1
    isplitl []; · iexact HI2
    iframe Hsrc Hdst HO Ht1 Ht2
    isplitl []; · iexact HR1
    iexact HR2
  · iintro ⟨Hc, HO'⟩
    iapply Hk; iframe Hrest Hcr Hc; iexists W; iexact HO'

end Cert.KernelIdeal.Proto

end
-- ==== Proof.StepWait.lean ====
import proofs.«900769_g7700000000000770_dist_diff_adaln_cshard_i_b4_s512_c256_v7x_i16_bf16_1_alg».proof.Proof.StepsDefs
import proofs.«900769_g7700000000000770_dist_diff_adaln_cshard_i_b4_s512_c256_v7x_i16_bf16_1_alg».proof.Proof.Sched
import proofs.«900769_g7700000000000770_dist_diff_adaln_cshard_i_b4_s512_c256_v7x_i16_bf16_1_alg».proof.Proof.Slots

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

theorem waitS_step (c : Dev nD) (rS jS rR jR : ℕ) (k : Fin 15) (h : rS + k.val = 14) (hj : k.val = jS)
    {a b : Memref sig .tc .vmem S8x512 .f32} {ha : a.view.WordExact} {hb : b.view.WordExact} (hamt : b.view.dmaCredit = N)
    {α : Type} {Q : α → sProp 𝕄} {kont : PUnit → Prog (TpuEff nD τ sig (Elt F) Λ₀ .tc) α} :
    records m ρ K
      ⊢ iprop(WaitSt m ρ c (rS + 1) jS rR jR -∗ (WaitSt m ρ c rS (jS + 1) rR jR -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS k) a b ha hb) kont) Q) := by
  have hw : ∀ K' : PUnit → sProp 𝕄,
      wpE (defs₀ (F := F)) 𝒱₀ (c : Thread nD τ) none Set.univ (.waitDma2 (sendS k) a b ha hb) K'
        = waitSpec (c : Thread nD τ) Set.univ (.dma (sendS k)) N K' := fun K' => by
    rw [wpE_waitDma2_eq, hamt]
  have hk : 0 + N = (sched m ρ).expect (sendCell c k) 0 := by rw [zero_add, expect_send]
  unfold WaitSt owesAny
  rw [fromEnd_succ (ΦWS (F := F) c) rS k h, fromStart_succ (ΦDS m ρ c) jS k hj]
  unfold ΦWS ΦDS
  iintro #HI ⟨⟨HE, Hat, Hc⟩, HDS, HWR, HDR, ⟨%W, How⟩⟩ Hk
  iapply (Rounds.wp_wait_rest_token 𝒱₀ ER (sched m ρ) (c : Thread nD τ) none hw
      (Set.mem_univ (K (c, some (false, k)))) () (O := 0) (W := W) (R := 0) (T := ∅) (m := 0) hk) $$ [Hc How Hat]
  · isplitr; · iapply (records_cell m ρ K (c, some (false, k))); iexact HI
    iframe Hc How Hat; rw [MayWait_zero]; iempintro
  rw [rest_send m ρ c k]
  unfold sendPay
  iintro ⟨How, Hat, -, Hpay⟩
  imod (Rounds.cell_close ER (sched m ρ) (g := sendCell c k) (Set.mem_univ (K (c, some (false, k)))) (fun hu => hu) (R := 0 + 1)
    (fun r hr => duties_later m ρ (sendCell c k) r hr)) $$ [Hat] with Hz
  · isplitr; · iapply (records_cell m ρ K (c, some (false, k))); iexact HI
    iexact Hat
  iapply Hk; iframe HE HDS Hpay Hz HWR HDR; iexists _; iexact How

theorem waitR_step (c : Dev nD) (rS jS rR jR : ℕ) (k : Fin 15) (h : rR + k.val = 14) (hj : k.val = jR)
    {a b : Memref sig .tc .vmem S8x512 .f32} {ha : a.view.WordExact} {hb : b.view.WordExact} (hamt : b.view.dmaCredit = N)
    {α : Type} {Q : α → sProp 𝕄} {kont : PUnit → Prog (TpuEff nD τ sig (Elt F) Λ₀ .tc) α} :
    records m ρ K
      ⊢ iprop(WaitSt m ρ c rS jS (rR + 1) jR -∗ (WaitSt m ρ c rS jS rR (jR + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS k) a b ha hb) kont) Q) := by
  have hw : ∀ K' : PUnit → sProp 𝕄,
      wpE (defs₀ (F := F)) 𝒱₀ (c : Thread nD τ) none Set.univ (.waitDma2 (recvS k) a b ha hb) K'
        = waitSpec (c : Thread nD τ) Set.univ (.dma (recvS k)) N K' := fun K' => by
    rw [wpE_waitDma2_eq, hamt]
  have hk : 0 + N = (sched m ρ).expect (recvCell c k) 0 := by rw [zero_add, expect_recv]
  unfold WaitSt owesAny
  rw [fromEnd_succ (ΦWR (F := F) c) rR k h, fromStart_succ (ΦDR m ρ c) jR k hj]
  unfold ΦWR ΦDR
  iintro #HI ⟨HWS, HDS, ⟨HE, Hat, Hc⟩, HDR, ⟨%W, How⟩⟩ Hk
  iapply (Rounds.wp_wait_rest_token 𝒱₀ ER (sched m ρ) (c : Thread nD τ) none hw
      (Set.mem_univ (K (c, some (true, k)))) () (O := 0) (W := W) (R := 0) (T := ∅) (m := 0) hk) $$ [Hc How Hat]
  · isplitr; · iapply (records_cell m ρ K (c, some (true, k))); iexact HI
    iframe Hc How Hat; rw [MayWait_zero]; iempintro
  rw [rest_recv m ρ c k]
  unfold recvPay
  iintro ⟨How, Hat, -, Hpay⟩
  imod (Rounds.cell_close ER (sched m ρ) (g := recvCell c k) (Set.mem_univ (K (c, some (true, k)))) (fun hu => hu) (R := 0 + 1)
    (fun r hr => duties_later m ρ (recvCell c k) r hr)) $$ [Hat] with Hz
  · isplitr; · iapply (records_cell m ρ K (c, some (true, k))); iexact HI
    iexact Hat
  iapply Hk; iframe HWS HDS HE HDR Hpay Hz; iexists _; iexact How

/-- A load of slot `k + 1` once lane `k`'s receive wait is done reads the block of the device `k + 1` places down. -/
theorem load_slot_step (c : Dev nD) (rS jS rR jR : ℕ) (k : Fin 15) (hj : k.val + 1 = jR)
    {hl : (cM : Memref sig .tc .vmem S16x8x512 .f32).view.LoadsAt (slotR (slotOf k)).toLoadRect}
    {α : Type} {Q : α → sProp 𝕄} {kont : ((slotR (slotOf k)).toLoadRect.shape.Idx → Elt F .f32) → Prog (TpuEff nD τ sig (Elt F) Λ₀ .tc) α} :
    WaitSt m ρ c rS jS rR jR
      ⊢ iprop((WaitSt m ρ c rS jS rR jR -∗ wp frame (wpE (defs₀ (F := F)) 𝒱₀ (c : Thread nD τ) none) Set.univ (kont (partC m ρ (dn c k))) Q)
          -∗ wp frame (wpE (defs₀ (F := F)) 𝒱₀ (c : Thread nD τ) none) Set.univ (.op (.load (cM : Memref sig .tc .vmem S16x8x512 .f32) (slotR (slotOf k)).toLoadRect hl) kont) Q) := by
  subst hj
  unfold WaitSt
  rw [fromStart_succ (ΦDR m ρ c) k.val k rfl]
  unfold ΦDR slotPts
  iintro ⟨HWS, HDS, HWR, ⟨HDR, Hs, Hz⟩, How⟩ Hk
  iapply (wp_load 𝒱₀ (c : Thread nD τ) none Set.univ (m := (cM : Memref sig .tc .vmem S16x8x512 .f32))
      (r := (slotR (slotOf k)).toLoadRect) (q := fullShare) (f := lift (partC m ρ (dn c k))) (loadslot_sub (slotOf k))) $$ [Hs]
  · iexact Hs
  rw [read_slot (slotOf k) (partC m ρ (dn c k))]
  iintro Hs
  iapply Hk; iframe

/-- A load of slot 0 at the share the copies left reads the device's own block. -/
theorem load_own_step (c : Dev nD)
    {hl : (cM : Memref sig .tc .vmem S16x8x512 .f32).view.LoadsAt (slotR 0).toLoadRect}
    {α : Type} {Q : α → sProp 𝕄} {kont : ((slotR 0).toLoadRect.shape.Idx → Elt F .f32) → Prog (TpuEff nD τ sig (Elt F) Λ₀ .tc) α} :
    slotPts c 0 restShare (lift (partC m ρ c))
      ⊢ iprop((slotPts c 0 restShare (lift (partC m ρ c)) -∗ wp frame (wpE (defs₀ (F := F)) 𝒱₀ (c : Thread nD τ) none) Set.univ (kont (partC m ρ c)) Q)
          -∗ wp frame (wpE (defs₀ (F := F)) 𝒱₀ (c : Thread nD τ) none) Set.univ (.op (.load (cM : Memref sig .tc .vmem S16x8x512 .f32) (slotR 0).toLoadRect hl) kont) Q) := by
  unfold slotPts
  iintro Hs Hk
  iapply (wp_load 𝒱₀ (c : Thread nD τ) none Set.univ (m := (cM : Memref sig .tc .vmem S16x8x512 .f32))
      (S := (slotM 0 : Memref sig .tc .vmem S8x512 .f32).view.set) (q := restShare) (f := lift (partC m ρ c)) (loadslot_sub 0)) $$ [Hs]
  · iexact Hs
  rw [read_slot 0 (partC m ρ c)]
  iintro Hs
  iapply Hk
  iexact Hs

end Cert.KernelIdeal.Proto

end
-- ==== Proof.Trans.lean ====
import proofs.«900769_g7700000000000770_dist_diff_adaln_cshard_i_b4_s512_c256_v7x_i16_bf16_1_alg».proof.Proof.StepsDefs
import proofs.«900769_g7700000000000770_dist_diff_adaln_cshard_i_b4_s512_c256_v7x_i16_bf16_1_alg».proof.Proof.Sched

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def laneAtPos (c : Dev nD) : sProp 𝕄 :=
  iprop((bigSep Finset.univ fun k : Fin 15 => atPos ER (sendCell c k) 0 ∅ 0) ∗ (bigSep Finset.univ fun k : Fin 15 => atPos ER (recvCell c k) 0 ∅ 0))
def sendToks (c : Dev nD) : sProp 𝕄 :=
  iprop((bigSep Finset.univ fun k : Fin 15 => dutyTok ER (recvCell (up c k) k) 0 (0 : Fin 15)) ∗ (bigSep Finset.univ fun k : Fin 15 => dutyTok ER (sendCell c k) 0 (0 : Fin 15)))
def recvCreds (c : Dev nD) : sProp 𝕄 := bigSep Finset.univ fun k : Fin 15 => cred (tallyAt (recvCell c k) () N)

omit [FloatOps F] in
theorem tr_bigSep_BK (Φ : Bool × Fin 15 → sProp 𝕄) :
    bigSep Finset.univ Φ = iprop((bigSep Finset.univ fun k : Fin 15 => Φ (false, k)) ∗ (bigSep Finset.univ fun k : Fin 15 => Φ (true, k))) := by
  rw [bigSep_univ_equiv (Equiv.boolProdEquivSum _).symm Φ, bigSep_univ_sum]
  rfl

omit [FloatOps F] in
theorem tr_bigSep_CK (Φ : CK → sProp 𝕄) :
    bigSep Finset.univ Φ = iprop(Φ none ∗ (bigSep Finset.univ fun k : Fin 15 => Φ (some (false, k))) ∗ (bigSep Finset.univ fun k : Fin 15 => Φ (some (true, k)))) := by
  rw [bigSep_univ_equiv (Equiv.optionEquivSumPUnit.{0, 0} _).symm Φ, bigSep_univ_sum, bigSep_univ_of_subsingleton PUnit.unit, tr_bigSep_BK]
  exact eq_of_equiv sep_comm

omit [FloatOps F] in
theorem tr_bigSep_lanes_mono {Φ Ψ : Fin 15 → sProp 𝕄} (h : ∀ k, Φ k ⊢ Ψ k) : bigSep Finset.univ Φ ⊢ bigSep Finset.univ Ψ :=
  bigSep_mono fun k _ => h k

/-- Slot 0 held whole is its remainder share and the fifteen lanes' read shares. -/
theorem slot0_toks (c : Dev nD) (f : (cc0_scratch0 : Ref sig .tc).ty.Contents (Elt F)) :
    slotPts c 0 fullShare f ⊣⊢ iprop(slotPts c 0 restShare f ∗ bigSep Finset.univ fun k : Fin 15 => slotPts c 0 (laneShare k) f) := by
  unfold slotPts; exact Transfers.pointsTo_toks fullShare 15

theorem T0 (c : Dev nD)
    (hsplit : ∀ f : Buf (Elt F) ((c : Thread nD τ).loc cc0_scratch0), (((c : Thread nD τ).loc cc0_scratch0) ↦{fullShare} f : sProp 𝕄)
      ⊢ iprop(slotPts c 0 fullShare f ∗ bigSep Finset.univ (fun k : Fin 15 => slotPts c (slotOf k) fullShare f))) :
    iprop(linear (F := F) c ∗ scrAny (F := F) c ∗ owesAny (F := F) c (O₀ c))
      ⊢ iprop(SigSt (F := F) c 15 ∗ slotAny (F := F) c 0 ∗ atPos ER (barCell c) 0 ∅ 0 ∗ laneAtPos (F := F) c ∗ sendToks (F := F) c) := by
  have hpos : (bigSep Finset.univ fun j : CK => atPos ER (kcell (c, j)) 0 ∅ 0 : sProp 𝕄)
      = iprop(atPos ER (barCell c) 0 ∅ 0 ∗ (bigSep Finset.univ fun k : Fin 15 => atPos ER (sendCell c k) 0 ∅ 0)
          ∗ (bigSep Finset.univ fun k : Fin 15 => atPos ER (recvCell c k) 0 ∅ 0)) :=
    tr_bigSep_CK _
  unfold linear payToks scrAny SigSt laneAtPos sendToks
  rw [hpos, eq_of_equiv (fromEnd_all _), show bigSep Finset.univ (ΦSig (F := F) c) = _ from bigSep_sep' _ _ _,
    bigSep_rev fun k => slotAny (F := F) c (slotOf k)]
  iintro ⟨⟨⟨Hbar, Hs, Hr⟩, HA, HB, HC⟩, ⟨%f, Hbuf⟩, Howes⟩
  ihave Hsl := hsplit f $$ Hbuf
  icases Hsl with ⟨H0, Hks⟩
  ihave Hks' := (tr_bigSep_lanes_mono fun k => show slotPts (F := F) c (slotOf k) fullShare f ⊢ slotAny (F := F) c (slotOf k) by
    unfold slotAny; iintro H; iexists f; iexact H) $$ Hks
  isplitl [HA Hks' Howes]
  · isplitr [Howes]; · iframe
    iexact Howes
  isplitl [H0]
  · unfold slotAny; iexists f; iexact H0
  iframe

theorem T1 (c : Dev nD) :
    iprop((bigSep Finset.univ fun i : Fin 15 => barPay (F := F) c i) ∗ slotPts c 0 fullShare (lift (partC m ρ c)) ∗ sendToks (F := F) c ∗ owesAny (F := F) c (remR c 15))
      ⊢ iprop(SendSt m ρ c 15 0 ∗ slotPts c 0 restShare (lift (partC m ρ c))) := by
  have hpay : (bigSep Finset.univ fun i : Fin 15 => barPay (F := F) c i)
      ⊢ bigSep Finset.univ fun k : Fin 15 => slotAny (F := F) (up c k) (slotOf k) := by
    rw [← bigSep_rev (fun k : Fin 15 => slotAny (F := F) (up c k) (slotOf k))]
    exact tr_bigSep_lanes_mono fun i => by
      unfold barPay slotAny; iintro ⟨H, -⟩; iexact H
  unfold sendToks SendSt
  rw [eq_of_equiv (fromEnd_all _), show bigSep Finset.univ (ΦSend m ρ c) = _ from bigSep_sep' _ _ _, bigSep_sep', bigSep_sep',
    show fromStart (ΦCred (F := F) c) 0 = iprop(emp) from rfl]
  iintro ⟨Hpay, H0, ⟨HB, HC⟩, Howes⟩
  ihave Hsl := hpay $$ Hpay
  ihave Hcut := (slot0_toks (F := F) c _).1 $$ H0
  icases Hcut with ⟨Hrest, Hlanes⟩
  iframe

theorem T2 (c : Dev nD) :
    iprop(SendSt m ρ c 0 15 ∗ laneAtPos (F := F) c ∗ recvCreds (F := F) c) ⊢ WaitSt m ρ c 15 0 15 0 := by
  unfold SendSt WaitSt laneAtPos recvCreds
  rw [eq_of_equiv (fromEnd_all (ΦWS (F := F) c)), eq_of_equiv (fromEnd_all (ΦWR (F := F) c)),
    show fromStart (ΦCred (F := F) c) 15 = bigSep Finset.univ fun k => cred (tallyAt (sendCell c k) () N) from eq_of_equiv (fromStart_all _),
    show bigSep Finset.univ (ΦWS (F := F) c) = _ from bigSep_sep' _ _ _, show bigSep Finset.univ (ΦWR (F := F) c) = _ from bigSep_sep' _ _ _, show fromStart (ΦDS m ρ c) 0 = iprop(emp) from rfl,
    show fromStart (ΦDR m ρ c) 0 = iprop(emp) from rfl, show remR c 0 = 0 from rfl]
  iintro ⟨⟨-, Howes, Hcred⟩, ⟨Hs, Hr⟩, Hrc⟩
  iframe

theorem T3 (c : Dev nD)
    (hjoin : ∀ (f0 : Buf (Elt F) ((c : Thread nD τ).loc cc0_scratch0)) (fk : Fin 15 → Buf (Elt F) ((c : Thread nD τ).loc cc0_scratch0)),
      iprop(slotPts c 0 fullShare f0 ∗ bigSep Finset.univ (fun k : Fin 15 => slotPts c (slotOf k) fullShare (fk k))) ⊢ scrAny (F := F) c) :
    iprop(WaitSt m ρ c 0 15 0 15 ∗ slotPts c 0 restShare (lift (partC m ρ c))) ⊢ iprop(Φ₁ (F := F) c ∗ owesAny (F := F) c 0) := by
  have hsem : (bigSep Finset.univ fun x : Bool × Fin 15 => (semVal ((c : Thread nD τ), osem x) 0 : sProp 𝕄))
      = iprop((bigSep Finset.univ fun k : Fin 15 => semVal (sendCell c k) 0)
          ∗ bigSep Finset.univ fun k : Fin 15 => semVal (recvCell c k) 0) :=
    tr_bigSep_BK _
  unfold WaitSt Φ₁
  rw [eq_of_equiv (fromStart_all (ΦDS m ρ c)), eq_of_equiv (fromStart_all (ΦDR m ρ c)),
    show bigSep Finset.univ (ΦDS m ρ c) = _ from bigSep_sep' _ _ _, show bigSep Finset.univ (ΦDR m ρ c) = _ from bigSep_sep' _ _ _, hsem,
    show fromEnd (ΦWS (F := F) c) 0 = iprop(emp) from rfl, show fromEnd (ΦWR (F := F) c) 0 = iprop(emp) from rfl]
  iintro ⟨⟨-, ⟨Hlanes, Hss⟩, -, ⟨Hslots, Hsr⟩, Howes⟩, Hrest⟩
  ihave H0 := (slot0_toks (F := F) c _).2 $$ [Hrest Hlanes]
  · iframe
  ihave Hscr := hjoin (lift (partC m ρ c)) (fun k => lift (partC m ρ (dn c k))) $$ [H0 Hslots]
  · iframe
  iframe

end Cert.KernelIdeal.Proto

end
-- ==== Proof.BodyVal.lean ====
import proofs.«900769_g7700000000000770_dist_diff_adaln_cshard_i_b4_s512_c256_v7x_i16_bf16_1_alg».proof.Proof.Ghost

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

theorem srcDev_lits (c : Dev nD) :
    srcDev c 1 = dn c 0 ∧ srcDev c 2 = dn c 1 ∧ srcDev c 3 = dn c 2 ∧ srcDev c 4 = dn c 3 ∧ srcDev c 5 = dn c 4 ∧ srcDev c 6 = dn c 5
      ∧ srcDev c 7 = dn c 6 ∧ srcDev c 8 = dn c 7 ∧ srcDev c 9 = dn c 8 ∧ srcDev c 10 = dn c 9 ∧ srcDev c 11 = dn c 10 ∧ srcDev c 12 = dn c 11
      ∧ srcDev c 13 = dn c 12 ∧ srcDev c 14 = dn c 13 ∧ srcDev c 15 = dn c 14 := by
  revert c; decide

theorem outC_eq (c : Dev nD) :
    outC m ρ c = k0_pay18 (k0_pay4 (tstg m ρ c) (wsstg m ρ c)) (k0_pay5 (tstg m ρ c) (whstg m ρ c)) (k0_pay6 (xstg m ρ c))
      (k0_pay17 (k0_pay16 (k0_pay15 (k0_pay14 (k0_pay13 (k0_pay12 (k0_pay11 (k0_pay10 (k0_pay9 (k0_pay8 (k0_pay7 (partC m ρ c)) (partC m ρ (dn c 0)))
        (partC m ρ (dn c 1)) (partC m ρ (dn c 2))) (partC m ρ (dn c 3))) (partC m ρ (dn c 4)) (partC m ρ (dn c 5))) (partC m ρ (dn c 6)))
        (partC m ρ (dn c 7)) (partC m ρ (dn c 8))) (partC m ρ (dn c 9))) (partC m ρ (dn c 10))) (partC m ρ (dn c 11)) (partC m ρ (dn c 12)))
        (partC m ρ (dn c 13))) (partC m ρ (dn c 14)) := by
  obtain ⟨h1, h2, h3, h4, h5, h6, h7, h8, h9, h10, h11, h12, h13, h14, h15⟩ := srcDev_lits c
  unfold outC KOut.kout KOut.tot
  simp only [srcDev_zero, h1, h2, h3, h4, h5, h6, h7, h8, h9, h10, h11, h12, h13, h14, h15]

end Cert.KernelIdeal.Proto

end
-- ==== Proof.Part28.lean ====
import proofs.«900769_g7700000000000770_dist_diff_adaln_cshard_i_b4_s512_c256_v7x_i16_bf16_1_alg».proof.Proof.Reads
import proofs.«900769_g7700000000000770_dist_diff_adaln_cshard_i_b4_s512_c256_v7x_i16_bf16_1_alg».proof.Proof.StepSend
import proofs.«900769_g7700000000000770_dist_diff_adaln_cshard_i_b4_s512_c256_v7x_i16_bf16_1_alg».proof.Proof.StepWait
import proofs.«900769_g7700000000000770_dist_diff_adaln_cshard_i_b4_s512_c256_v7x_i16_bf16_1_alg».proof.Proof.Trans
import proofs.«900769_g7700000000000770_dist_diff_adaln_cshard_i_b4_s512_c256_v7x_i16_bf16_1_alg».proof.Proof.BodyVal

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

set_option maxHeartbeats 3200000 in
/-- Fifteen signals, the own partial sums, the barrier wait, fifteen copies, then per lane two waits and the landed block added: the sixteen slots summed in slot order. -/
theorem part28 (c : Dev nD) {Q : FVec F S4x512x256 .bf16 → sProp 𝕄} :
    iprop(records m ρ K
        ∗ (SigSt (F := F) c 15 ∗ slotAny (F := F) c 0 ∗ atPos ER (barCell c) 0 ∅ 0 ∗ laneAtPos (F := F) c ∗ sendToks (F := F) c ∗ levAts L lv
            ∗ creds (F := F) c ∗ inPts m ρ c)
        ∗ (∀ out, iprop(⌜out = outC m ρ c⌝ ∗ Φ₁ (F := F) c ∗ owesAny (F := F) c 0 ∗ inPts m ρ c) -∗ Q out))
      ⊢ wp frame (wpE (defs₀ (F := F)) 𝒱₀ (c : Thread nD τ) none) Set.univ (k0_part28 xM (Memref.isWhole_whole _) tM (Memref.isWhole_whole _) wsM (Memref.isWhole_whole _) whM (Memref.isWhole_whole _) oM (Memref.isWhole_whole _) cM (Memref.isWhole_whole _) cc0_scratch1 cc0_scratch2) Q := by
  rw [k0_part28_eq_skeleton]; unfold k0_part28_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, dev15_eq c]
  unfold creds
  iintro ⟨#HR, ⟨H, Hs0, HatB, HatL, Htok, #Hlev, ⟨HcrB, HcrR⟩, Hin⟩, HQ⟩
  iapply (signal_step m ρ K c 14 0 rfl rfl) $$ HR H; iintro H
  iapply (signal_step m ρ K c 13 1 rfl rfl) $$ HR H; iintro H
  iapply (signal_step m ρ K c 12 2 rfl rfl) $$ HR H; iintro H
  iapply (signal_step m ρ K c 11 3 rfl rfl) $$ HR H; iintro H
  iapply (signal_step m ρ K c 10 4 rfl rfl) $$ HR H; iintro H
  iapply (signal_step m ρ K c 9 5 rfl rfl) $$ HR H; iintro H
  iapply (signal_step m ρ K c 8 6 rfl rfl) $$ HR H; iintro H
  iapply (signal_step m ρ K c 7 7 rfl rfl) $$ HR H; iintro H
  iapply (signal_step m ρ K c 6 8 rfl rfl) $$ HR H; iintro H
  iapply (signal_step m ρ K c 5 9 rfl rfl) $$ HR H; iintro H
  iapply (signal_step m ρ K c 4 10 rfl rfl) $$ HR H; iintro H
  iapply (signal_step m ρ K c 3 11 rfl rfl) $$ HR H; iintro H
  iapply (signal_step m ρ K c 2 12 rfl rfl) $$ HR H; iintro H
  iapply (signal_step m ρ K c 1 13 rfl rfl) $$ HR H; iintro H
  unfold inPts slotAny
  icases Hs0 with ⟨%f0, Hs0⟩
  icases Hin with ⟨Hx, Ht, Hws, Hwh⟩
  iapply (signal_step m ρ K c 0 14 rfl (by decide)) $$ HR H; iintro H
  iapply (wp_load 𝒱₀ (c : Thread nD τ) none Set.univ (m := xM) (Finset.subset_univ _)) $$ Hx; iintro Hx
  rw [read_x]
  unfold slotPts
  iapply (wp_load 𝒱₀ (c : Thread nD τ) none Set.univ (m := cM) load0a_sub) $$ Hs0; iintro Hs0
  iapply (wp_store 𝒱₀ (c : Thread nD τ) none Set.univ (m := cM) (r := r0a) (Mk := Finset.univ) store0a_sub) $$ Hs0; iintro Hs0
  iapply (wp_load 𝒱₀ (c : Thread nD τ) none Set.univ (m := cM) load0b_sub) $$ Hs0; iintro Hs0
  iapply (wp_store 𝒱₀ (c : Thread nD τ) none Set.univ (m := cM) (r := r0b) (Mk := Finset.univ) store0b_sub) $$ Hs0; iintro Hs0
  have hst : (((cM : Memref sig .tc .vmem S16x8x512 .f32).access r0b).loc (c : Thread nD τ) ↦[(slotM 0 : Memref sig .tc .vmem S8x512 .f32).view.set]{fullShare}
        (((cM : Memref sig .tc .vmem S16x8x512 .f32).access r0b).write (Elt F) (((cM : Memref sig .tc .vmem S16x8x512 .f32).access r0a).write (Elt F) f0 (k0_pay2 (xstg m ρ c)) Finset.univ) (k0_pay3 (xstg m ρ c)) Finset.univ) : sProp 𝕄)
      ⊢ slotPts c 0 fullShare (lift (partC m ρ c)) := slot0_stored c f0 (xstg m ρ c)
  ihave Hs0 := hst $$ Hs0
  iapply (wp_load 𝒱₀ (c : Thread nD τ) none Set.univ (m := tM) (Finset.subset_univ _)) $$ Ht; iintro Ht
  rw [read_t]
  iapply (wp_load 𝒱₀ (c : Thread nD τ) none Set.univ (m := wsM) (Finset.subset_univ _)) $$ Hws; iintro Hws
  rw [read_ws]
  iapply (wp_load 𝒱₀ (c : Thread nD τ) none Set.univ (m := tM) (Finset.subset_univ _)) $$ Ht; iintro Ht
  rw [read_t]
  iapply (wp_load 𝒱₀ (c : Thread nD τ) none Set.univ (m := whM) (Finset.subset_univ _)) $$ Hwh; iintro Hwh
  rw [read_wh]
  unfold SigSt fromEnd
  icases H with ⟨-, HO⟩
  iapply (bar_wait_step m ρ K c (by decide) (mayWait_bar c)) $$ [HO HcrB HatB]
  · iframe HR Hlev HcrB HatB; iexact HO
  iintro ⟨HO, Hpay⟩
  ihave H1 := (T1 m ρ c) $$ [Hpay Hs0 Htok HO]
  · iframe
  icases H1 with ⟨H, Hs0⟩
  iapply (send_step m ρ K c _ 14 0 0 (dev16_eq c) rfl rfl) $$ HR H; iintro H
  iapply (send_step m ρ K c _ 13 1 1 (dev17_eq c) rfl rfl) $$ HR H; iintro H
  iapply (send_step m ρ K c _ 12 2 2 (dev18_eq c) rfl rfl) $$ HR H; iintro H
  iapply (send_step m ρ K c _ 11 3 3 (dev19_eq c) rfl rfl) $$ HR H; iintro H
  iapply (send_step m ρ K c _ 10 4 4 (dev20_eq c) rfl rfl) $$ HR H; iintro H
  iapply (send_step m ρ K c _ 9 5 5 (dev21_eq c) rfl rfl) $$ HR H; iintro H
  iapply (send_step m ρ K c _ 8 6 6 (dev22_eq c) rfl rfl) $$ HR H; iintro H
  iapply (send_step m ρ K c _ 7 7 7 (dev23_eq c) rfl rfl) $$ HR H; iintro H
  iapply (send_step m ρ K c _ 6 8 8 (dev24_eq c) rfl rfl) $$ HR H; iintro H
  iapply (send_step m ρ K c _ 5 9 9 (dev25_eq c) rfl rfl) $$ HR H; iintro H
  iapply (send_step m ρ K c _ 4 10 10 (dev26_eq c) rfl rfl) $$ HR H; iintro H
  iapply (send_step m ρ K c _ 3 11 11 (dev27_eq c) rfl rfl) $$ HR H; iintro H
  iapply (send_step m ρ K c _ 2 12 12 (dev28_eq c) rfl rfl) $$ HR H; iintro H
  iapply (send_step m ρ K c _ 1 13 13 (dev29_eq c) rfl rfl) $$ HR H; iintro H
  iapply (send_step m ρ K c _ 0 14 14 (dev30_eq c) rfl rfl) $$ HR H; iintro H
  iapply (load_own_step m ρ c) $$ Hs0; iintro Hs0
  ihave HW := (T2 m ρ c) $$ [H HatL HcrR]
  · unfold recvCreds; iframe
  icases HW with H
  iapply (waitS_step m ρ K c 14 0 15 0 0 rfl rfl (credit_eq 0)) $$ HR H; iintro H
  iapply (waitR_step m ρ K c 14 1 14 0 0 rfl rfl (credit_eq 1)) $$ HR H; iintro H
  iapply (load_slot_step m ρ c 14 1 14 1 0 rfl) $$ H; iintro H
  iapply (waitS_step m ρ K c 13 1 14 1 1 rfl rfl (credit_eq 0)) $$ HR H; iintro H
  iapply (waitR_step m ρ K c 13 2 13 1 1 rfl rfl (credit_eq 2)) $$ HR H; iintro H
  iapply (load_slot_step m ρ c 13 2 13 2 1 rfl) $$ H; iintro H
  iapply (waitS_step m ρ K c 12 2 13 2 2 rfl rfl (credit_eq 0)) $$ HR H; iintro H
  iapply (waitR_step m ρ K c 12 3 12 2 2 rfl rfl (credit_eq 3)) $$ HR H; iintro H
  iapply (load_slot_step m ρ c 12 3 12 3 2 rfl) $$ H; iintro H
  iapply (waitS_step m ρ K c 11 3 12 3 3 rfl rfl (credit_eq 0)) $$ HR H; iintro H
  iapply (waitR_step m ρ K c 11 4 11 3 3 rfl rfl (credit_eq 4)) $$ HR H; iintro H
  iapply (load_slot_step m ρ c 11 4 11 4 3 rfl) $$ H; iintro H
  iapply (waitS_step m ρ K c 10 4 11 4 4 rfl rfl (credit_eq 0)) $$ HR H; iintro H
  iapply (waitR_step m ρ K c 10 5 10 4 4 rfl rfl (credit_eq 5)) $$ HR H; iintro H
  iapply (load_slot_step m ρ c 10 5 10 5 4 rfl) $$ H; iintro H
  iapply (waitS_step m ρ K c 9 5 10 5 5 rfl rfl (credit_eq 0)) $$ HR H; iintro H
  iapply (waitR_step m ρ K c 9 6 9 5 5 rfl rfl (credit_eq 6)) $$ HR H; iintro H
  iapply (load_slot_step m ρ c 9 6 9 6 5 rfl) $$ H; iintro H
  iapply (waitS_step m ρ K c 8 6 9 6 6 rfl rfl (credit_eq 0)) $$ HR H; iintro H
  iapply (waitR_step m ρ K c 8 7 8 6 6 rfl rfl (credit_eq 7)) $$ HR H; iintro H
  iapply (load_slot_step m ρ c 8 7 8 7 6 rfl) $$ H; iintro H
  iapply (waitS_step m ρ K c 7 7 8 7 7 rfl rfl (credit_eq 0)) $$ HR H; iintro H
  iapply (waitR_step m ρ K c 7 8 7 7 7 rfl rfl (credit_eq 8)) $$ HR H; iintro H
  iapply (load_slot_step m ρ c 7 8 7 8 7 rfl) $$ H; iintro H
  iapply (waitS_step m ρ K c 6 8 7 8 8 rfl rfl (credit_eq 0)) $$ HR H; iintro H
  iapply (waitR_step m ρ K c 6 9 6 8 8 rfl rfl (credit_eq 9)) $$ HR H; iintro H
  iapply (load_slot_step m ρ c 6 9 6 9 8 rfl) $$ H; iintro H
  iapply (waitS_step m ρ K c 5 9 6 9 9 rfl rfl (credit_eq 0)) $$ HR H; iintro H
  iapply (waitR_step m ρ K c 5 10 5 9 9 rfl rfl (credit_eq 10)) $$ HR H; iintro H
  iapply (load_slot_step m ρ c 5 10 5 10 9 rfl) $$ H; iintro H
  iapply (waitS_step m ρ K c 4 10 5 10 10 rfl rfl (credit_eq 0)) $$ HR H; iintro H
  iapply (waitR_step m ρ K c 4 11 4 10 10 rfl rfl (credit_eq 11)) $$ HR H; iintro H
  iapply (load_slot_step m ρ c 4 11 4 11 10 rfl) $$ H; iintro H
  iapply (waitS_step m ρ K c 3 11 4 11 11 rfl rfl (credit_eq 0)) $$ HR H; iintro H
  iapply (waitR_step m ρ K c 3 12 3 11 11 rfl rfl (credit_eq 12)) $$ HR H; iintro H
  iapply (load_slot_step m ρ c 3 12 3 12 11 rfl) $$ H; iintro H
  iapply (waitS_step m ρ K c 2 12 3 12 12 rfl rfl (credit_eq 0)) $$ HR H; iintro H
  iapply (waitR_step m ρ K c 2 13 2 12 12 rfl rfl (credit_eq 13)) $$ HR H; iintro H
  iapply (load_slot_step m ρ c 2 13 2 13 12 rfl) $$ H; iintro H
  iapply (waitS_step m ρ K c 1 13 2 13 13 rfl rfl (credit_eq 0)) $$ HR H; iintro H
  iapply (waitR_step m ρ K c 1 14 1 13 13 rfl rfl (credit_eq 14)) $$ HR H; iintro H
  iapply (load_slot_step m ρ c 1 14 1 14 13 rfl) $$ H; iintro H
  iapply (waitS_step m ρ K c 0 14 1 14 14 rfl rfl (credit_eq 0)) $$ HR H; iintro H
  iapply (waitR_step m ρ K c 0 15 0 14 14 rfl rfl (credit_eq 15)) $$ HR H; iintro H
  iapply (load_slot_step m ρ c 0 15 0 15 14 rfl) $$ H; iintro H
  iapply (le_wp_ret _ _ _ _ _)
  ihave HF := (T3 m ρ c (fun f0 fk => scr_join c f0 fk)) $$ [H Hs0]
  · iframe
  icases HF with ⟨HF, HO⟩
  iapply HQ
  isplitr; · ipureintro; exact (outC_eq m ρ c).symm
  iframe

end Cert.KernelIdeal.Proto

end
-- ==== Proof.Body.lean ====
import proofs.«900769_g7700000000000770_dist_diff_adaln_cshard_i_b4_s512_c256_v7x_i16_bf16_1_alg».proof.Proof.Part28
import proofs.«900769_g7700000000000770_dist_diff_adaln_cshard_i_b4_s512_c256_v7x_i16_bf16_1_alg».proof.Proof.Slots

noncomputable section

namespace Cert.KernelIdeal.Proto

open Cert.KernelIdeal Cert.KernelIdeal.Gen Cert.KernelIdeal.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

abbrev r4 : Rect S4x512x256 := Rect.unit (s := S4x512x256) ![0, 0, 0] S4x512x256.size inb_S4x512x256_S4x512x256_0_0_0

omit [FloatOps F] in
theorem write_out (f w : (cc0_stg4_0 : Ref sig .tc).ty.Contents (Elt F)) :
    ((oM : Memref sig .tc .vmem S4x512x256 .bf16).access r4 : View sig .tc _ _ _).write (Elt F) f w Finset.univ = w :=
  Memref.write_access_unit_zero_univ (Elt F) cc0_stg4_0 hz3 _ f w

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def atEntry (c : Dev nD) : sProp 𝕄 :=
  iprop((dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (tstg m ρ c)
    ∗ stg c cc0_stg2_0 (wsstg m ρ c) ∗ stg c cc0_stg3_0 (whstg m ρ c) ∗ stg c cc0_stg4_0 (outC m ρ c))

set_option maxHeartbeats 1600000 in
theorem sound_body (c : Dev nD) (Kt : PUnit → sProp 𝕄) :
    iprop(((ghost m ρ K c ∗ creds (F := F) c ∗ levAts L lv ∗ scrAny (F := F) c) ∗ atEntry m ρ c) ∗ (bodyPost m ρ c -∗ Kt ⟨⟩))
      ⊢ wp frame (wpE (defs₀ (F := F)) 𝒱₀ (c : Thread nD τ) none) Set.univ (cc0_body xM (Memref.isWhole_whole _) tM (Memref.isWhole_whole _) wsM (Memref.isWhole_whole _) whM (Memref.isWhole_whole _) oM (Memref.isWhole_whole _) cM (Memref.isWhole_whole _) cc0_scratch1 cc0_scratch2) Kt := by
  rw [cc0_body_eq_skeleton]; unfold cc0_body_skel
  simp only [Prog.lift, Prog.pure_eq_ret]
  unfold atEntry ghost
  iintro ⟨⟨⟨⟨#HR, Hlin⟩, Hcr, #Hlev, Hscr⟩, Ho, ⟨%d0, %g0, %hg0, Hx⟩, ⟨%d1, %g1, %hg1, Ht⟩, ⟨%d2, %g2, %hg2, Hws⟩, ⟨%d3, %g3, %hg3, Hwh⟩, ⟨%d4, %g4, %hg4, Hout⟩⟩, Hk⟩
  have hx : g0 = xstg m ρ c := by rw [hg0]; unfold Dat.before; rw [if_pos (fetch0_0 t₀)]; rfl
  have ht : g1 = tstg m ρ c := by rw [hg1]; unfold Dat.before; rw [if_pos (fetch0_1 t₀)]; rfl
  have hws : g2 = wsstg m ρ c := by rw [hg2]; unfold Dat.before; rw [if_pos (fetch0_2 t₀)]; rfl
  have hwh : g3 = whstg m ρ c := by rw [hg3]; unfold Dat.before; rw [if_pos (fetch0_3 t₀)]; rfl
  subst hx ht hws hwh
  unfold Dat.owesAt Pipeline.owesWithin
  icases Ho with ⟨%W, %hW, HO⟩
  rw [show (dats m ρ 0 c).owed t₀.castSucc = O₀ c from rfl]
  ihave H0 := (T0 (F := F) c (fun f => (scr_split c f).1)) $$ [Hlin Hscr HO]
  · iframe Hlin Hscr; unfold owesAny; iexists W; iexact HO
  icases H0 with ⟨HS, Hs0, HatB, HatL, Htok⟩
  rw [wp_bind]
  iapply (part28 m ρ K c)
  isplitr; · iexact HR
  isplitl [HS Hs0 HatB HatL Htok Hcr Hx Ht Hws Hwh]
  · unfold inPts; iframe Hlev ∗
  iintro %out ⟨%hf, HF, HO, Hin⟩
  subst hf
  unfold inPts
  icases Hin with ⟨Hx, Ht, Hws, Hwh⟩
  iapply (wp_load 𝒱₀ (c : Thread nD τ) none Set.univ (m := oM) (Finset.subset_univ _)) $$ Hout; iintro Hout
  iapply (wp_store 𝒱₀ (c : Thread nD τ) none Set.univ (m := oM) (r := r4) (Mk := Finset.univ) (Finset.subset_univ _)) $$ Hout; iintro Hout
  rw [write_out]
  iapply (le_wp_ret _ _ _ _ _)
  iapply Hk
  unfold bodyPost Dat.owesAt Pipeline.owesWithin owesAny
  rw [show (dats m ρ 0 c).owed t₀.succ = 0 from rfl]
  isplitl [HF]; · iexact HF
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  isplitl [Hws]
  · iexists _; isplitr; · (ipureintro; rfl)
    iexact Hws
  isplitl [Hwh]
  · iexists _; isplitr; · (ipureintro; rfl)
    iexact Hwh
  iexists _; isplitr; · (ipureintro; rfl)
  iexact Hout

end Cert.KernelIdeal.Proto

namespace Cert.KernelIdeal.Proto

open Cert.KernelIdeal Cert.KernelIdeal.Gen Cert.KernelIdeal.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

set_option maxRecDepth 65536 in
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show iprop(Φ₀ m ρ c ∗ atEntry m ρ c) ⊢ wp frame (wpE (defs₀ (F := F)) 𝒱₀ (c : Thread nD τ) none) Set.univ
    (cc0_body xM (Memref.isWhole_whole _) tM (Memref.isWhole_whole _) wsM (Memref.isWhole_whole _) whM (Memref.isWhole_whole _) oM (Memref.isWhole_whole _) cM (Memref.isWhole_whole _) cc0_scratch1 cc0_scratch2) (fun _ => bodyPost m ρ c)
  unfold Φ₀ start
  iintro ⟨⟨⟨⟨%K, Hg⟩, Hcr, Hlev⟩, Hscr⟩, Hst⟩
  iapply (sound_body m ρ K c fun _ => bodyPost m ρ c)
  isplitr []
  · iframe
  · iintro H; iexact H

end Cert.KernelIdeal.Proto

end
-- ==== Proof.B_DevEqs.lean ====
import proofs.«900769_g7700000000000770_dist_diff_adaln_cshard_i_b4_s512_c256_v7x_i16_bf16_1_alg».proof.Proof.Gen.Kernel

namespace Cert.Kernel.Ring

open Idealize.ShloMosaic Cert.Kernel Cert.Kernel.Gen

/-- The device k+1 places after c on the ring of sixteen, and the device k+1 places before it. -/
def up (c : Dev nD) (k : Fin 15) : Dev nD := ⟨(c.val + k.val + 1) % 16, Nat.mod_lt _ (by decide)⟩
def dn (c : Dev nD) (k : Fin 15) : Dev nD := ⟨(c.val + 15 - k.val) % 16, Nat.mod_lt _ (by decide)⟩
/-- Lane k read from the other end: lanes k and rev k together go once round the ring. -/
def rev (k : Fin 15) : Fin 15 := ⟨14 - k.val, by omega⟩

theorem dn_up (c : Dev nD) (k : Fin 15) : dn (up c k) k = c := by revert c k; decide
theorem up_dn (c : Dev nD) (k : Fin 15) : up (dn c k) k = c := by revert c k; decide
theorem up_up_rev (c : Dev nD) (k : Fin 15) : up (up c k) (rev k) = c := by revert c k; decide
theorem up_rev_eq_dn (c : Dev nD) (k : Fin 15) : up c (rev k) = dn c k := by revert c k; decide
theorem rev_rev (k : Fin 15) : rev (rev k) = k := by revert k; decide
theorem up_ne (c : Dev nD) (k : Fin 15) : up c k ≠ c := by revert c k; decide
theorem up_inj (c : Dev nD) (k k' : Fin 15) (h : up c k = up c k') : k = k' := by revert c k k'; decide

/-! The signals' targets (chains 1 to 15) and the copies' targets (chains 16 to 30). -/
theorem dev1_eq (c : Dev nD) : (⟨k0_dev1 c, k0_dev1_lt c⟩ : Dev nD) = up c 0 := by revert c; decide +kernel
theorem dev2_eq (c : Dev nD) : (⟨k0_dev2 c, k0_dev2_lt c⟩ : Dev nD) = up c 1 := by revert c; decide +kernel
theorem dev3_eq (c : Dev nD) : (⟨k0_dev3 c, k0_dev3_lt c⟩ : Dev nD) = up c 2 := by revert c; decide +kernel
theorem dev4_eq (c : Dev nD) : (⟨k0_dev4 c, k0_dev4_lt c⟩ : Dev nD) = up c 3 := by revert c; decide +kernel
theorem dev5_eq (c : Dev nD) : (⟨k0_dev5 c, k0_dev5_lt c⟩ : Dev nD) = up c 4 := by revert c; decide +kernel
theorem dev6_eq (c : Dev nD) : (⟨k0_dev6 c, k0_dev6_lt c⟩ : Dev nD) = up c 5 := by revert c; decide +kernel
theorem dev7_eq (c : Dev nD) : (⟨k0_dev7 c, k0_dev7_lt c⟩ : Dev nD) = up c 6 := by revert c; decide +kernel
theorem dev8_eq (c : Dev nD) : (⟨k0_dev8 c, k0_dev8_lt c⟩ : Dev nD) = up c 7 := by revert c; decide +kernel
theorem dev9_eq (c : Dev nD) : (⟨k0_dev9 c, k0_dev9_lt c⟩ : Dev nD) = up c 8 := by revert c; decide +kernel
theorem dev10_eq (c : Dev nD) : (⟨k0_dev10 c, k0_dev10_lt c⟩ : Dev nD) = up c 9 := by revert c; decide +kernel
theorem dev11_eq (c : Dev nD) : (⟨k0_dev11 c, k0_dev11_lt c⟩ : Dev nD) = up c 10 := by revert c; decide +kernel
theorem dev12_eq (c : Dev nD) : (⟨k0_dev12 c, k0_dev12_lt c⟩ : Dev nD) = up c 11 := by revert c; decide +kernel
theorem dev13_eq (c : Dev nD) : (⟨k0_dev13 c, k0_dev13_lt c⟩ : Dev nD) = up c 12 := by revert c; decide +kernel
theorem dev14_eq (c : Dev nD) : (⟨k0_dev14 c, k0_dev14_lt c⟩ : Dev nD) = up c 13 := by revert c; decide +kernel
theorem dev15_eq (c : Dev nD) : (⟨k0_dev15 c, k0_dev15_lt c⟩ : Dev nD) = up c 14 := by revert c; decide +kernel
theorem dev16_eq (c : Dev nD) : (⟨k0_dev16 c, k0_dev16_lt c⟩ : Dev nD) = up c 0 := by revert c; decide +kernel
theorem dev17_eq (c : Dev nD) : (⟨k0_dev17 c, k0_dev17_lt c⟩ : Dev nD) = up c 1 := by revert c; decide +kernel
theorem dev18_eq (c : Dev nD) : (⟨k0_dev18 c, k0_dev18_lt c⟩ : Dev nD) = up c 2 := by revert c; decide +kernel
theorem dev19_eq (c : Dev nD) : (⟨k0_dev19 c, k0_dev19_lt c⟩ : Dev nD) = up c 3 := by revert c; decide +kernel
theorem dev20_eq (c : Dev nD) : (⟨k0_dev20 c, k0_dev20_lt c⟩ : Dev nD) = up c 4 := by revert c; decide +kernel
theorem dev21_eq (c : Dev nD) : (⟨k0_dev21 c, k0_dev21_lt c⟩ : Dev nD) = up c 5 := by revert c; decide +kernel
theorem dev22_eq (c : Dev nD) : (⟨k0_dev22 c, k0_dev22_lt c⟩ : Dev nD) = up c 6 := by revert c; decide +kernel
theorem dev23_eq (c : Dev nD) : (⟨k0_dev23 c, k0_dev23_lt c⟩ : Dev nD) = up c 7 := by revert c; decide +kernel
theorem dev24_eq (c : Dev nD) : (⟨k0_dev24 c, k0_dev24_lt c⟩ : Dev nD) = up c 8 := by revert c; decide +kernel
theorem dev25_eq (c : Dev nD) : (⟨k0_dev25 c, k0_dev25_lt c⟩ : Dev nD) = up c 9 := by revert c; decide +kernel
theorem dev26_eq (c : Dev nD) : (⟨k0_dev26 c, k0_dev26_lt c⟩ : Dev nD) = up c 10 := by revert c; decide +kernel
theorem dev27_eq (c : Dev nD) : (⟨k0_dev27 c, k0_dev27_lt c⟩ : Dev nD) = up c 11 := by revert c; decide +kernel
theorem dev28_eq (c : Dev nD) : (⟨k0_dev28 c, k0_dev28_lt c⟩ : Dev nD) = up c 12 := by revert c; decide +kernel
theorem dev29_eq (c : Dev nD) : (⟨k0_dev29 c, k0_dev29_lt c⟩ : Dev nD) = up c 13 := by revert c; decide +kernel
theorem dev30_eq (c : Dev nD) : (⟨k0_dev30 c, k0_dev30_lt c⟩ : Dev nD) = up c 14 := by revert c; decide +kernel

end Cert.Kernel.Ring
-- ==== Proof.B_KOut.lean ====
import proofs.«900769_g7700000000000770_dist_diff_adaln_cshard_i_b4_s512_c256_v7x_i16_bf16_1_alg».proof.Proof.Gen.Kernel.Skeleton
import Idealize.ShloMosaic.Lib.ValueIdx

noncomputable section

namespace Cert.Kernel.KOut

open Idealize.ShloMosaic Idealize.ShloMosaic.ValueIdx Cert.Kernel Cert.Kernel.Gen

variable {F : FTy → Type} [FloatOps F]

def partOf (x : Vec F S4x512x256 .f32) : Vec F S1x8x512 .f32 := fun i =>
  if h : (i 1).val < 4 then k0_pay2 x (ix3 (0 : Fin 1) (⟨(i 1).val, h⟩ : Fin 4) (⟨(i 2).val, (i 2).isLt⟩ : Fin 512))
  else k0_pay3 x (ix3 (0 : Fin 1) (⟨(i 1).val - 4, by have h8 : (i 1).val < 8 := (i 1).isLt; omega⟩ : Fin 4) (⟨(i 2).val, (i 2).isLt⟩ : Fin 512))

def tot (s : Fin 16 → Vec F S1x8x512 .f32) : FVec F S8x512 .f32 :=
  k0_pay17 (k0_pay16 (k0_pay15 (k0_pay14 (k0_pay13 (k0_pay12 (k0_pay11 (k0_pay10 (k0_pay9 (k0_pay8 (k0_pay7 (s 0)) (s 1)) (s 2) (s 3)) (s 4))
    (s 5) (s 6)) (s 7)) (s 8) (s 9)) (s 10)) (s 11)) (s 12) (s 13)) (s 14)

def kout (x : Vec F S4x512x256 .f32) (t : Vec F S4x128 .f32) (ws wsh : Vec F S128x256 .f32) (s : Fin 16 → Vec F S1x8x512 .f32) :
    FVec F S4x512x256 .bf16 :=
  k0_pay18 (k0_pay4 t ws) (k0_pay5 t wsh) (k0_pay6 x) (tot s) (s 15)

end Cert.Kernel.KOut

end
-- ==== Proof.B_Cells.lean ====
import proofs.«900769_g7700000000000770_dist_diff_adaln_cshard_i_b4_s512_c256_v7x_i16_bf16_1_alg».proof.Proof.B_DevEqs
import proofs.«900769_g7700000000000770_dist_diff_adaln_cshard_i_b4_s512_c256_v7x_i16_bf16_1_alg».proof.Proof.B_KOut
import proofs.«900769_g7700000000000770_dist_diff_adaln_cshard_i_b4_s512_c256_v7x_i16_bf16_1_alg».proof.Proof.Gen.Kernel.Launch
import proofs.«900769_g7700000000000770_dist_diff_adaln_cshard_i_b4_s512_c256_v7x_i16_bf16_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic

noncomputable section

namespace Cert.Kernel.Proto

open Cert.Kernel Cert.Kernel.Gen Cert.Kernel.Ring
open Idealize.ShloMosaic Idealize.ShloMosaic.TcCoe Idealize.ShloMosaic.ValueIdx Idealize.ShloMosaic.Rounds
open Idealize.SL Idealize.SL.RA Idealize.SL.BI
open scoped Idealize.SL.BI
open Idealize.SL.BI.BIBase

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S4x512x256 .f32 := Memref.whole cc0_stg0_0
abbrev tM : Memref sig .tc .vmem S4x128 .f32 := Memref.whole cc0_stg1_0
abbrev wsM : Memref sig .tc .vmem S128x256 .f32 := Memref.whole cc0_stg2_0
abbrev whM : Memref sig .tc .vmem S128x256 .f32 := Memref.whole cc0_stg3_0
abbrev oM : Memref sig .tc .vmem S4x512x256 .bf16 := Memref.whole cc0_stg4_0
abbrev cM : Memref sig .tc .vmem S16x8x512 .f32 := Memref.whole cc0_scratch0

theorem slot_inb (k : Fin 16) : ∀ a, (![k.val, 0, 0] : Fin 3 → Nat) a + S1x8x512.size a ≤ S16x8x512.size a := by
  revert k; decide

abbrev slotR (k : Fin 16) : Rect S16x8x512 := Rect.unit (s := S16x8x512) ![k.val, 0, 0] S1x8x512.size (slot_inb k)
abbrev slotM (k : Fin 16) : Memref sig .tc .vmem S8x512 .f32 :=
  ((cM.slice (slotR k) (fun _ => rfl)).squeeze S8x512 squeezes_S1x8x512_S8x512)

def slotOf (k : Fin 15) : Fin 16 := ⟨k.val + 1, by omega⟩

abbrev barS : Sem sig := (SemArray.scalar (sig.barrier 0 rfl) : Sems sig S_).sem

def sendS (k : Fin 15) : DmaSem sig := ⟨5 + k.val, Nat.lt_of_lt_of_le (Nat.add_lt_add_left k.isLt 5) (by decide)⟩
def recvS (k : Fin 15) : DmaSem sig := ⟨20 + k.val, Nat.lt_of_lt_of_le (Nat.add_lt_add_left k.isLt 20) (by decide)⟩

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

abbrev osem : Bool × Fin 15 → SemLoc sig := fun x => if x.1 then .dma (recvS x.2) else .dma (sendS x.2)

abbrev csem : Option (Bool × Fin 15) → SemLoc sig := fun | none => .reg barS | some x => osem x
abbrev kcell (ck : Dev nD × Option (Bool × Fin 15)) : GSem nD τ sig := ((ck.1 : Thread nD τ), csem ck.2)

def sendLane : SemLoc sig → Option (Fin 15)
  | .dma q => if h : 5 ≤ q.val ∧ q.val < 20 then some ⟨q.val - 5, by omega⟩ else none
  | _ => none
def recvLane : SemLoc sig → Option (Fin 15)
  | .dma q => if h : 20 ≤ q.val ∧ q.val < 35 then some ⟨q.val - 20, by omega⟩ else none
  | _ => none

theorem sendLane_send (k : Fin 15) : sendLane (.dma (sendS k)) = some k := by revert k; decide
theorem recvLane_recv (k : Fin 15) : recvLane (.dma (recvS k)) = some k := by revert k; decide
theorem recvLane_send (k : Fin 15) : recvLane (.dma (sendS k)) = none := by revert k; decide

abbrev N : ℕ := (slotM 0 : Memref sig .tc .vmem S8x512 .f32).view.dmaCredit
theorem N_pos : 0 < N := View.dmaCredit_pos _ (by decide)

def xstg (c : Dev nD) : (cc0_stg0_0 : Ref sig .tc).ty.Contents (Elt F) :=
  (win0_0.blk t0_0).view.read (Elt F) ((s₀ m ρ).mem ((c : Thread nD τ).loc main_arg0))
def tstg (c : Dev nD) : (cc0_stg1_0 : Ref sig .tc).ty.Contents (Elt F) :=
  (win0_1.blk t0_0).view.read (Elt F) ((s₀ m ρ).mem ((c : Thread nD τ).loc main_arg1))
def wsstg (c : Dev nD) : (cc0_stg2_0 : Ref sig .tc).ty.Contents (Elt F) :=
  (win0_2.blk t0_0).view.read (Elt F) ((s₀ m ρ).mem ((c : Thread nD τ).loc main_arg2))
def whstg (c : Dev nD) : (cc0_stg3_0 : Ref sig .tc).ty.Contents (Elt F) :=
  (win0_3.blk t0_0).view.read (Elt F) ((s₀ m ρ).mem ((c : Thread nD τ).loc main_arg3))

def partC (d : Dev nD) : Vec F S1x8x512 .f32 := KOut.partOf (xstg m ρ d)

def srcDev (c : Dev nD) (k : Fin 16) : Dev nD := ⟨(c.val + 16 - k.val) % 16, Nat.mod_lt _ (by decide)⟩

theorem srcDev_zero (c : Dev nD) : srcDev c 0 = c := by revert c; decide

def outC (c : Dev nD) : (cc0_stg4_0 : Ref sig .tc).ty.Contents (Elt F) :=
  KOut.kout (xstg m ρ c) (tstg m ρ c) (wsstg m ρ c) (whstg m ρ c) (fun k => partC m ρ (srcDev c k))

def lift (v : Vec F S1x8x512 .f32) : (cc0_scratch0 : Ref sig .tc).ty.Contents (Elt F) :=
  fun i => v (ix3 (0 : Fin 1) (⟨(i 1).val, (i 1).isLt⟩ : Fin 8) (⟨(i 2).val, (i 2).isLt⟩ : Fin 512))

def slotPts (c : Dev nD) (k : Fin 16) (q : PosShare TreeShare) (f : Buf (Elt F) ((slotM k : Memref sig .tc .vmem S8x512 .f32).view.loc (c : Thread nD τ))) : sProp 𝕄 :=
  (slotM k : Memref sig .tc .vmem S8x512 .f32).view.loc (c : Thread nD τ) ↦[(slotM k : Memref sig .tc .vmem S8x512 .f32).view.set]{q} f

omit [FloatOps F] in
instance slotPts_storable (c : Dev nD) (k : Fin 16) (q : PosShare TreeShare) (f) : BI.Storable (upEmb : UEmb _ 𝕄) (slotPts (F := F) c k q f) := by
  unfold slotPts; infer_instance

abbrev laneShare (k : Fin 15) : PosShare TreeShare := Transfers.shareTok fullShare 15 k

abbrev restShare : PosShare TreeShare := Transfers.shareDrop fullShare 15

def barPay (e : Dev nD) (i : Fin 15) : sProp 𝕄 :=
  iprop((∃ f, slotPts (up e (rev i)) (slotOf (rev i)) fullShare f) ∗ reached ER (recvCell (up e (rev i)) (rev i)) 0)

def recvPay (c : Dev nD) (k : Fin 15) : sProp 𝕄 := slotPts c (slotOf k) fullShare (lift (partC m ρ (dn c k)))

def sendPay (c : Dev nD) (k : Fin 15) : sProp 𝕄 := slotPts c 0 (laneShare k) (lift (partC m ρ c))

def sched : Rounds.Schedule (GSem nD τ sig) (Fin 15) 𝕄 where
  duties g r :=
    if r = 0 ∧ g.1.2 = .tc then
      (if g.2 = .reg barS then Finset.univ else if (sendLane g.2).isSome ∨ (recvLane g.2).isSome then {0} else ∅)
    else ∅
  unitless _ := False
  amount g _ _ := if g.2 = .reg barS then 1 else N
  payload g _ d :=
    if g.2 = .reg barS then barPay g.1.1 d
    else match recvLane g.2 with
      | some k => recvPay m ρ g.1.1 k
      | none => match sendLane g.2 with
        | some k => sendPay m ρ g.1.1 k
        | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 15) :
    BI.Storable (upEmb : UEmb _ 𝕄) ((sched (F := F) m ρ).payload g r d) := by
  dsimp only [sched]; unfold barPay recvPay sendPay
  (repeat' split) <;> infer_instance

end Cert.Kernel.Proto

end
-- ==== Proof.B_Ghost.lean ====
import proofs.«900769_g7700000000000770_dist_diff_adaln_cshard_i_b4_s512_c256_v7x_i16_bf16_1_alg».proof.Proof.B_Cells

noncomputable section

namespace Cert.Kernel.Proto

open Cert.Kernel Cert.Kernel.Gen Cert.Kernel.Ring
open Idealize.ShloMosaic Idealize.ShloMosaic.TcCoe Idealize.ShloMosaic.Rounds
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

def lane (n : ℕ) : Fin 15 := ⟨n % 15, Nat.mod_lt _ (by decide)⟩

def remR (c : Dev nD) : ℕ → CellTallies nD τ sig Unit
  | 0 => 0
  | r + 1 => remR c r + tallyAt (recvCell (up c (lane (14 - r))) (lane (14 - r))) () N

def remB (c : Dev nD) : ℕ → CellTallies nD τ sig Unit
  | 0 => remR c 15
  | r + 1 => remB c r + tallyAt (barCell (up c (lane (14 - r)))) () 1

def O₀ (c : Dev nD) : CellTallies nD τ sig Unit := remB c 15

def L (g : GSem nD τ sig) : Finset Unit := if g.1.2 = .tc then {()} else ∅

def lv (g : GSem nD τ sig) (_ : Unit) : ℕ := if g.2 = .reg barS then 1 else if (recvLane g.2).isSome then 2 else 0

theorem L_of_ne (g : GSem nD τ sig) (h : g.1.2 ≠ .tc) : L g = ∅ := if_neg h

abbrev CK : Type := Option (Bool × Fin 15)

def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

def payToks (c : Dev nD) : sProp 𝕄 :=
  iprop((bigSep Finset.univ fun i : Fin 15 => dutyTok ER (barCell (up c i)) 0 i)
    ∗ (bigSep Finset.univ fun k : Fin 15 => dutyTok ER (recvCell (up c k) k) 0 (0 : Fin 15))
    ∗ (bigSep Finset.univ fun k : Fin 15 => dutyTok ER (sendCell c k) 0 (0 : Fin 15)))

def linear (c : Dev nD) : sProp 𝕄 :=
  iprop((bigSep Finset.univ fun j : CK => atPos ER (kcell (c, j)) 0 ∅ 0) ∗ payToks c)

def ghost (K : Dev nD × CK → ℕ) (c : Dev nD) : sProp 𝕄 := iprop(records m ρ K ∗ linear c)

def creds (c : Dev nD) : sProp 𝕄 :=
  iprop(cred (tallyAt (barCell c) () 15) ∗ bigSep Finset.univ fun k : Fin 15 => cred (tallyAt (recvCell c k) () N))

def start (c : Dev nD) : sProp 𝕄 :=
  iprop((∃ K, ghost m ρ K c) ∗ creds c ∗ levAts L lv)

def scrAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m ρ c ∗ scrAny c)

def Φ₁ (c : Dev nD) : sProp 𝕄 := iprop(scrAny c ∗ bigSep Finset.univ fun x : Bool × Fin 15 => semVal ((c : Thread nD τ), osem x) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => wsstg m ρ c
    | ⟨3, _⟩ => whstg m ρ c
    | ⟨4, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Kernel.Proto

end
-- ==== Proof.B_Sched.lean ====
import proofs.«900769_g7700000000000770_dist_diff_adaln_cshard_i_b4_s512_c256_v7x_i16_bf16_1_alg».proof.Proof.B_Cells

noncomputable section

namespace Cert.Kernel.Proto

open Cert.Kernel
open Idealize.ShloMosaic Idealize.ShloMosaic.Rounds
open Idealize.SL Idealize.SL.BI

variable {F : FTy → Type} [FloatOps F]

variable (m : (ℓ : Loc nD τ sig) → Buf (Elt F) ℓ) (ρ : Dev nD → PrngReg)

theorem send_ne_bar (k : Fin 15) : (SemLoc.dma (sendS k) : SemLoc sig) ≠ .reg barS := nofun
theorem recv_ne_bar (k : Fin 15) : (SemLoc.dma (recvS k) : SemLoc sig) ≠ .reg barS := nofun

theorem duties_bar (c : Dev nD) : (sched (F := F) m ρ).duties (barCell c) 0 = Finset.univ := by
  dsimp only [sched]; rw [if_pos ⟨rfl, rfl⟩]; exact if_pos rfl

theorem duties_send (c : Dev nD) (k : Fin 15) : (sched (F := F) m ρ).duties (sendCell c k) 0 = {0} := by
  dsimp only [sched]; rw [if_pos ⟨rfl, rfl⟩, if_neg (send_ne_bar k)]
  exact if_pos (.inl (by rw [sendLane_send]; rfl))

theorem duties_recv (c : Dev nD) (k : Fin 15) : (sched (F := F) m ρ).duties (recvCell c k) 0 = {0} := by
  dsimp only [sched]; rw [if_pos ⟨rfl, rfl⟩, if_neg (recv_ne_bar k)]
  exact if_pos (.inr (by rw [recvLane_recv]; rfl))

theorem duties_later (g : GSem nD τ sig) : ∀ r, 1 ≤ r → (sched (F := F) m ρ).duties g r = ∅ :=
  fun r hr => by dsimp only [sched]; rw [if_neg fun h => absurd h.1 (by omega)]

theorem amount_bar (c : Dev nD) (i : Fin 15) : (sched (F := F) m ρ).amount (barCell c) 0 i = 1 := by dsimp only [sched]; exact if_pos rfl
theorem amount_send (c : Dev nD) (k : Fin 15) (d : Fin 15) : (sched (F := F) m ρ).amount (sendCell c k) 0 d = N := by
  dsimp only [sched]; exact if_neg (send_ne_bar k)
theorem amount_recv (c : Dev nD) (k : Fin 15) (d : Fin 15) : (sched (F := F) m ρ).amount (recvCell c k) 0 d = N := by
  dsimp only [sched]; exact if_neg (recv_ne_bar k)

theorem expect_bar (c : Dev nD) : (sched (F := F) m ρ).expect (barCell c) 0 = 15 := by
  unfold Schedule.expect Schedule.amountOf
  rw [duties_bar, Finset.sum_congr rfl fun d _ => amount_bar m ρ c d, Finset.sum_const, Finset.card_univ, Fintype.card_fin,
    smul_eq_mul, Nat.mul_one]

theorem expect_send (c : Dev nD) (k : Fin 15) : (sched (F := F) m ρ).expect (sendCell c k) 0 = N := by
  unfold Schedule.expect Schedule.amountOf; rw [duties_send, Finset.sum_singleton, amount_send]
theorem expect_recv (c : Dev nD) (k : Fin 15) : (sched (F := F) m ρ).expect (recvCell c k) 0 = N := by
  unfold Schedule.expect Schedule.amountOf; rw [duties_recv, Finset.sum_singleton, amount_recv]

theorem payload_bar (c : Dev nD) (i : Fin 15) : (sched (F := F) m ρ).payload (barCell c) 0 i = barPay c i := by
  dsimp only [sched]; exact if_pos rfl

theorem payload_send (c : Dev nD) (k : Fin 15) (d : Fin 15) : (sched (F := F) m ρ).payload (sendCell c k) 0 d = sendPay m ρ c k := by
  dsimp only [sched]; rw [if_neg (send_ne_bar k), recvLane_send, sendLane_send]

theorem payload_recv (c : Dev nD) (k : Fin 15) (d : Fin 15) : (sched (F := F) m ρ).payload (recvCell c k) 0 d = recvPay m ρ c k := by
  dsimp only [sched]; rw [if_neg (recv_ne_bar k), recvLane_recv]

theorem rest_bar (c : Dev nD) :
    bigSep ((sched (F := F) m ρ).duties (barCell c) 0 \ ∅) (fun d => (sched (F := F) m ρ).payload (barCell c) 0 d)
      = bigSep Finset.univ (fun i : Fin 15 => barPay (F := F) c i) := by
  rw [Finset.sdiff_empty, duties_bar]
  exact bigSep_congr fun i _ => payload_bar m ρ c i

theorem rest_send (c : Dev nD) (k : Fin 15) :
    bigSep ((sched (F := F) m ρ).duties (sendCell c k) 0 \ ∅) (fun d => (sched (F := F) m ρ).payload (sendCell c k) 0 d) = sendPay m ρ c k := by
  rw [Finset.sdiff_empty, duties_send, bigSep_singleton, payload_send]

theorem rest_recv (c : Dev nD) (k : Fin 15) :
    bigSep ((sched (F := F) m ρ).duties (recvCell c k) 0 \ ∅) (fun d => (sched (F := F) m ρ).payload (recvCell c k) 0 d) = recvPay m ρ c k := by
  rw [Finset.sdiff_empty, duties_recv, bigSep_singleton, payload_recv]

end Cert.Kernel.Proto

end
-- ==== Proof.B_Levels.lean ====
import proofs.«900769_g7700000000000770_dist_diff_adaln_cshard_i_b4_s512_c256_v7x_i16_bf16_1_alg».proof.Proof.B_Ghost
import proofs.«900769_g7700000000000770_dist_diff_adaln_cshard_i_b4_s512_c256_v7x_i16_bf16_1_alg».proof.Proof.B_Sched

noncomputable section

namespace Cert.Kernel.Proto

open Cert.Kernel Cert.Kernel.Ring
open Idealize.ShloMosaic Idealize.ShloMosaic.TcCoe
open Idealize.SL Idealize.SL.BI
open scoped Idealize.SL.BI
open Idealize.SL.BI.BIBase Idealize.SL.BI.Laws Idealize.SL.ProofMode

variable {F : FTy → Type} [FloatOps F]

local notation "𝕄" => MT nD τ sig Unit (Elt F) ℕ UU ℕ

variable (m : (ℓ : Loc nD τ sig) → Buf (Elt F) ℓ) (ρ : Dev nD → PrngReg)

-- A cell owed while copies remain is a receive cell up the ring, at level 2.
theorem remR_pos {c : Dev nD} {r : ℕ} {g : GSem nD τ sig} {u : Unit} (h : 0 < remR c r g u) : u ∈ L g ∧ 1 < lv g u := by
  induction r with
  | zero => exact absurd h (Nat.lt_irrefl 0)
  | succ r ih =>
    rw [remR] at h
    rcases Pipeline.add_pos_cases h with h | h
    · exact ih h
    · obtain ⟨rfl, rfl⟩ := Pipeline.tallyAt_pos h
      refine ⟨Finset.mem_singleton_self _, ?_⟩
      dsimp only [lv]; rw [if_neg (recv_ne_bar _), recvLane_recv]; exact Nat.lt_succ_self 1

-- With signals still owed too, a cell owed is such a receive cell or a barrier cell, at level 1 or more.
theorem remB_pos {c : Dev nD} {r : ℕ} {g : GSem nD τ sig} {u : Unit} (h : 0 < remB c r g u) : u ∈ L g ∧ 0 < lv g u := by
  induction r with
  | zero => exact (remR_pos h).imp_right Nat.zero_lt_of_lt
  | succ r ih =>
    rw [remB] at h
    rcases Pipeline.add_pos_cases h with h | h
    · exact ih h
    · obtain ⟨rfl, rfl⟩ := Pipeline.tallyAt_pos h
      refine ⟨Finset.mem_singleton_self _, ?_⟩
      dsimp only [lv]; rw [if_pos rfl]; exact Nat.one_pos

-- A transfer cell that is no receive cell sits at level 0, below every cell the device can owe.
omit [FloatOps F] in
theorem mayWait_stage (c : Dev nD) (q : DmaSem sig) (hq : recvLane (.dma q) = none) (O : CellTallies nD τ sig Unit)
    (hO : O = O₀ c ∨ O = 0) : (levAts L lv : sProp 𝕄) ⊢ MayWait (c : Thread nD τ) (.dma q) () O := by
  rcases hO with rfl | rfl
  · refine Pipeline.mayWait_of_levAts (Finset.mem_singleton_self _) fun g u h => ?_
    rw [show lv ((c : Thread nD τ), .dma q) () = 0 from by dsimp only [lv]; rw [if_neg (fun h => by cases h), hq]; rfl]
    exact remB_pos h
  · rw [MayWait_zero]; iintro -; iempintro

-- The barrier cell sits at level 1, below the receive cells, which are all the device then owes.
omit [FloatOps F] in
theorem mayWait_bar (c : Dev nD) : (levAts L lv : sProp 𝕄) ⊢ MayWait (c : Thread nD τ) (.reg barS) () (remR c 15) :=
  Pipeline.mayWait_of_levAts (Finset.mem_singleton_self _) fun _ _ h => remR_pos h

-- Copy by copy, what the devices owe lane k's receive cell one step up the ring is, the ring turned back, one credit for that cell's owner.
theorem credR (c : Dev nD) (r : ℕ) : (Pipeline.launchCred (fun d => remR d r) c : sProp 𝕄)
    ⊢ bigSep (Finset.range r) fun i => cred (tallyAt (recvCell c (lane (14 - i))) () N) := by
  induction r with
  | zero => rw [Finset.range_zero]; exact Entails.of_eq (Pipeline.launchCred_zero c)
  | succ r ih =>
    simp only [remR]
    rw [Pipeline.launchCred_add, Finset.range_add_one, bigSep_insert Finset.notMem_range_self]
    exact (sep_mono_left ih).trans ((sep_mono_right
      (Pipeline.launchCred_tallyAt _ (up · _) (dn · _) (up_dn · _) (dn_up · _) () N c)).trans sep_symm)

-- Each signal still owed is a unit on a barrier cell up the ring: r of them credit every barrier cell r units.
theorem credB (c : Dev nD) (r : ℕ) : (Pipeline.launchCred (fun d => remB d r) c : sProp 𝕄)
    ⊢ iprop(cred (tallyAt (barCell c) () r) ∗ Pipeline.launchCred (fun d => remR d 15) c) := by
  induction r with
  | zero => rw [tallyAt_zero, cred_zero]; exact Idealize.SL.BI.emp_sep.2
  | succ r ih =>
    simp only [remB]
    rw [Pipeline.launchCred_add, ← tallyAt_add]
    exact (sep_mono_left ih).trans ((sep_mono_right
      (Pipeline.launchCred_tallyAt _ (up · _) (dn · _) (up_dn · _) (dn_up · _) () 1 c)).trans
        (sep_right_comm.1.trans (sep_mono_left (cred_add _ _).2)))

-- The lanes 14 - i, i < 15, are the fifteen lanes, each once.
theorem creds_of_launch (c : Dev nD) : (Pipeline.launchCred O₀ c : sProp 𝕄) ⊢ creds c := by
  refine (credB c 15).trans (sep_mono_right ((credR c 15).trans (Entails.of_eq ?_)))
  rw [show Finset.range 15 = Finset.univ.map ⟨fun k : Fin 15 => 14 - k.val, fun k k' => by revert k k'; decide⟩ from by decide,
    bigSep_map]
  exact bigSep_congr fun k _ => congrArg (fun k => cred (tallyAt (recvCell c k) () N)) (by revert k; decide)

end Cert.Kernel.Proto

end
-- ==== Proof.B_Launch.lean ====
import proofs.«900769_g7700000000000770_dist_diff_adaln_cshard_i_b4_s512_c256_v7x_i16_bf16_1_alg».proof.Proof.B_Ghost
import proofs.«900769_g7700000000000770_dist_diff_adaln_cshard_i_b4_s512_c256_v7x_i16_bf16_1_alg».proof.Proof.B_Sched
import proofs.«900769_g7700000000000770_dist_diff_adaln_cshard_i_b4_s512_c256_v7x_i16_bf16_1_alg».proof.Proof.B_Levels

noncomputable section

namespace Cert.Kernel.Proto

open Cert.Kernel Cert.Kernel.Gen Cert.Kernel.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem la_osem_ne_bar (x : Bool × Fin 15) : osem x ≠ .reg barS := by
  rcases x with ⟨_ | _, k⟩
  exacts [send_ne_bar k, recv_ne_bar k]

theorem la_osem_injective : Function.Injective osem := by decide

theorem la_csem_injective : Function.Injective csem := by
  rintro (_ | x) (_ | x') h
  · rfl
  · exact absurd h.symm (la_osem_ne_bar x')
  · exact absurd h (la_osem_ne_bar x)
  · exact congrArg some (la_osem_injective h)

theorem kcell_injective : Function.Injective (kcell : Dev nD × CK → GSem nD τ sig) := by
  rintro ⟨c, j⟩ ⟨c', j'⟩ h
  exact Prod.ext (congrArg (Prod.fst ∘ Prod.fst) h) (la_csem_injective (congrArg Prod.snd h))
def ringCells : Finset (GSem nD τ sig) := Finset.univ.map ⟨kcell, kcell_injective⟩

abbrev la_TK : Type := Fin 15 ⊕ (Bool × Fin 15)

-- Round 0's duty tokens under the device that pays each: its signal to the barrier cell i + 1 places up, its own send cells, the receive cells its copies land on.
abbrev tokOf (ct : Dev nD × la_TK) : GSem nD τ sig × ℕ × Fin 15 := match ct.2 with
  | .inl i => (barCell (up ct.1 i), 0, i)
  | .inr x => (kcell (if x.1 then up ct.1 x.2 else ct.1, some x), 0, 0)

-- Going up the ring by a fixed lane is undone by going down by it.
theorem la_up_inj {c c' : Dev nD} {k : Fin 15} (h : up c k = up c' k) : c = c' :=
  (dn_up c k).symm.trans ((congrArg (dn · k) h).trans (dn_up c' k))
theorem la_tokOf_injective : Function.Injective (tokOf : Dev nD × la_TK → GSem nD τ sig × ℕ × Fin 15) := by
  rintro ⟨c, i | x⟩ ⟨c', i' | x'⟩ h
  · obtain rfl : i = i' := congrArg (Prod.snd ∘ Prod.snd) h
    exact Prod.ext (la_up_inj (congrArg (Prod.fst ∘ Prod.fst ∘ Prod.fst) h)) rfl
  · exact absurd (congrArg (Prod.snd ∘ Prod.fst) h).symm (la_osem_ne_bar x')
  · exact absurd (congrArg (Prod.snd ∘ Prod.fst) h) (la_osem_ne_bar x)
  · obtain rfl : x = x' := la_osem_injective (congrArg (Prod.snd ∘ Prod.fst) h)
    have hd := congrArg (Prod.fst ∘ Prod.fst ∘ Prod.fst) h
    rcases x with ⟨_ | _, k⟩
    exacts [Prod.ext hd rfl, Prod.ext (la_up_inj hd) rfl]
def ringToks : Finset (GSem nD τ sig × ℕ × Fin 15) := Finset.univ.map ⟨tokOf, la_tokOf_injective⟩

def u₀ : UU :=
  (initOf (Pipeline.cells cfgs cellOf_inj) (Pipeline.launchToks cfgs cellOf_inj), initOf ringCells ringToks)

-- A device's share of the launch: its thirty-one cells each in state A, that each has reached round 0, and what stays with it.
def G₁ (A : GSem nD τ sig → sProp 𝕄) (c : Dev nD) : sProp 𝕄 :=
  iprop((bigSep Finset.univ fun j : CK => A (kcell (c, j)))
    ∗ (bigSep Finset.univ fun j : CK => reached ER (kcell (c, j)) 0) ∗ linear c)

def G (c : Dev nD) : sProp 𝕄 := G₁ (fun g => roundState ER (sched m ρ) g 0) c

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : CK => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by
      unfold payToks; rw [bigSep_univ_sum, bigSep_univ_prod, bigSep_univ_eq_bigSepL [true, false] (by decide) (by decide)]; rfl
  refine (Rounds.fund ER (sched m ρ) ringCells ringToks).trans (BI.bupd_mono ?_)
  rw [hX, hX, hX, hT]; unfold G G₁ linear; simp only [bigSep_sep']
  show _ ⊢ (_ : sProp 𝕄)
  iintro ⟨Hst, Hr, Hat, Htok⟩; iframe

-- A device's thirty own counters and its barrier counter are the counters of its thirty-one cells.
theorem sems0_eq (c : Dev nD) : (iprop(Pipeline.ownSems0 osem c ∗ unscopedSems0 c) : sProp 𝕄)
      ⊢ bigSep Finset.univ fun j : CK => semVal (kcell (c, j)) 0 := by
  unfold unscopedSems0
  rw [show (Finset.univ : Finset CK) = insert none (Finset.univ.map .some) from by ext x; cases x <;> simp,
    bigSep_insert (by simp), bigSep_map, bigSep_eq_bigSepL_of_eq [SemLoc.reg barS] (by decide) (by decide)]
  exact sep_symm

-- Each cell's invariant is allocated from its counter and its round state at zero.
theorem core_alloc (c : Dev nD) :
    (iprop(Pipeline.ownSems0 osem c ∗ unscopedSems0 c ∗ G m ρ c) : sProp 𝕄)
      ⊢ |={Set.univ}=> G₁ (fun g => iprop(∃ κ : ℕ, cellInv ER (sched m ρ) κ g)) c := by
  unfold G G₁
  iintro ⟨Hos, Hus, Hst, Hrest⟩
  ihave Hv := (sems0_eq (F := F) c) $$ [Hos Hus]
  · iframe
  imod (show iprop((bigSep Finset.univ fun j : CK => semVal (kcell (c, j)) 0) ∗ bigSep Finset.univ fun j : CK => roundState ER (sched m ρ) (kcell (c, j)) 0)
      ⊢ (|={Set.univ}=> bigSep Finset.univ fun j : CK => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · iframe
  imodintro; iframe

theorem la_bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

-- The invariants' names gathered into one function of the cell, every device keeps a copy of the persistent records.
theorem regroup : (bigSep Finset.univ fun c : Dev nD => G₁ (fun g => iprop(∃ κ : ℕ, cellInv ER (sched m ρ) κ g)) c : sProp 𝕄)
      ⊢ bigSep Finset.univ (G' m ρ) := by
  simp only [G₁, bigSep_sep']
  rw [← bigSep_univ_prod (fun ck : Dev nD × CK => iprop(∃ κ : ℕ, cellInv ER (sched m ρ) κ (kcell ck))),
    ← bigSep_univ_prod (fun ck : Dev nD × CK => (reached ER (kcell ck) 0 : sProp 𝕄))]
  iintro ⟨HI, #HR, Hlin⟩
  ihave HK := (BI.bigSep_exists_pi Finset.univ _) $$ HI
  icases HK with ⟨%K, #HI⟩
  iapply (la_bigSep_with_persistent (R := records m ρ K) (Φ := linear) fun c _ => by
    unfold G' ghost; iintro H; iexists K; iexact H)
  unfold records; iframe HI HR Hlin

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := fun c w => by unfold Dat.share; split <;> rfl)
    (hdistinct := winFacts0.arr_inj)
    (O₀ := O₀) (howed₀ := fun _ => rfl) (howedN := fun _ => rfl)
    (L := L) (lv := lv) (hL := L_of_ne) (hwaits := fun c => Pipeline.cellsWaits_intro cfgs (dats m ρ) () 0 c fun w s t =>
      mayWait_stage c _ (by fin_cases w <;> fin_cases s <;> decide) _ (by
        rcases t with ⟨_ | _, ht⟩
        exacts [.inl rfl, .inr rfl]))
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro; iframe)
    (hglob := ((bigSep_mono fun c _ => core_alloc m ρ c).trans (bigSep_fupd _ _)).trans (BI.fupd_mono (regroup m ρ)))
    (hA := fun _ _ => rfl) (hpf := fun _ k => k.elim0)
    (X := start m ρ) (Y := fun _ => iprop(emp)) (Z := fun _ => iprop(emp))
    (hX := fun c => by
      iintro ⟨-, Hlev, Hcr, -, HG⟩
      ihave Hc := (creds_of_launch (F := F) c) $$ Hcr
      imodintro
      unfold start G'
      iframe)
    (hin := fun c => by
      rw [show (dats m ρ 0 c).Φ 0 = Φ₀ m ρ c from rfl, scopedRest0_eq]
      unfold Φ₀ scrAny
      iintro ⟨Hs, -, ⟨%f, Hr⟩⟩
      iframe Hs; iexists f; iexact Hr)
    (hout := fun c => by
      rw [show (dats m ρ 0 c).Φ (Fin.last cfg0.N) = Φ₁ c from rfl, scopedRest0_eq]
      unfold Φ₁ scrAny Pipeline.ownSems0
      iintro ⟨Hr, Hz⟩
      iframe)
    (QY := fun _ _ => True)
    (hY := fun c s' => by
      iintro ⟨-, -, HSI⟩
      imodintro
      isplitr; · ipureintro; trivial
      iexact HSI)
    (hQ := fun _ h c w => (h c).1 w)

/-- An input window's array ends as it began. -/
theorem finalA_in (c : Dev nD) (w : Fin 5) (hw : (cfg0.win w).isOut = false) :
    finalA m ρ c w = (s₀ m ρ).mem ((cfg0.win w).arr.view.loc (c : Thread nD τ)) :=
  (dats (F := F) m ρ 0 c).arrAt_in w hw _

theorem finalA_out (c : Dev nD) : finalA m ρ c (4 : Fin 5) = outC m ρ c := by
  unfold finalA
  rw [show cfg0.N = (t₀ : Fin cfg0.N).val + 1 from rfl, Dat.arrAt_succ, if_pos (flush0_4 t₀)]
  exact Memref.write_access_unit_zero_univ (Elt F) main_v1 (funext fun a => Nat.zero_mul _) _ _ _

end Cert.Kernel.Proto

end
-- ==== Proof.B_Lanes.lean ====
import proofs.«900769_g7700000000000770_dist_diff_adaln_cshard_i_b4_s512_c256_v7x_i16_bf16_1_alg».proof.Proof.B_Ghost
import Idealize.ShloMosaic.Lib.ReduceScatter.Rules

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def fromEnd (Φ : Fin 15 → sProp 𝕄) : ℕ → sProp 𝕄
  | 0 => iprop(emp)
  | r + 1 => iprop(fromEnd Φ r ∗ Φ (lane (14 - r)))

def fromStart (Φ : Fin 15 → sProp 𝕄) : ℕ → sProp 𝕄
  | 0 => iprop(emp)
  | j + 1 => iprop(fromStart Φ j ∗ Φ (lane j))

omit [FloatOps F] in
theorem lane_of_eq {j : ℕ} {i : Fin 15} (h : i.val = j) : lane j = i :=
  Fin.ext (h ▸ Nat.mod_eq_of_lt i.isLt)
omit [FloatOps F] in
theorem lane_of_add {r : ℕ} {i : Fin 15} (h : r + i.val = 14) : lane (14 - r) = i := lane_of_eq (by omega)

omit [FloatOps F] in
theorem fromEnd_succ (Φ : Fin 15 → sProp 𝕄) (r : ℕ) (i : Fin 15) (h : r + i.val = 14) : fromEnd Φ (r + 1) = iprop(fromEnd Φ r ∗ Φ i) := by
  rw [← lane_of_add h]; rfl
omit [FloatOps F] in
theorem fromStart_succ (Φ : Fin 15 → sProp 𝕄) (j : ℕ) (i : Fin 15) (h : i.val = j) : fromStart Φ (j + 1) = iprop(fromStart Φ j ∗ Φ i) := by
  rw [← lane_of_eq h]; rfl

omit [FloatOps F] in
theorem eq_of_equiv {P Q : sProp 𝕄} (h : P ⊣⊢ Q) : P = Q := Idealize.SL.BI.Entails.antisymm h.mp h.mpr

omit [FloatOps F] in
/-- A product built one factor a step is the product over the steps taken. -/
theorem seq_range {G Ψ : ℕ → sProp 𝕄} (h0 : G 0 = iprop(emp)) (hs : ∀ n, G (n + 1) = iprop(G n ∗ Ψ n)) :
    ∀ n, G n = bigSep (Finset.range n) Ψ
  | 0 => h0
  | n + 1 => by rw [hs, seq_range h0 hs n, ReduceScatter.bigSep_range_succ]; exact eq_of_equiv sep_comm

omit [FloatOps F] in
/-- Reading the lanes from the other end permutes them. -/
theorem bigSep_rev (Φ : Fin 15 → sProp 𝕄) : (bigSep Finset.univ fun i => Φ (rev i)) = bigSep Finset.univ Φ :=
  (bigSep_univ_equiv ⟨rev, rev, rev_rev, rev_rev⟩ Φ).symm

omit [FloatOps F] in
theorem fromStart_all (Φ : Fin 15 → sProp 𝕄) : fromStart Φ 15 ⊣⊢ bigSep Finset.univ Φ := by
  rw [seq_range (G := fromStart Φ) (Ψ := fun n => Φ (lane n)) rfl (fun _ => rfl) 15, ← ReduceScatter.Dat.bigSep_fin_range]
  exact .of_eq (bigSep_congr fun i _ => congrArg Φ (lane_of_eq rfl))
omit [FloatOps F] in
theorem fromEnd_all (Φ : Fin 15 → sProp 𝕄) : fromEnd Φ 15 ⊣⊢ bigSep Finset.univ Φ := by
  rw [seq_range (G := fromEnd Φ) (Ψ := fun n => Φ (lane (14 - n))) rfl (fun _ => rfl) 15, ← ReduceScatter.Dat.bigSep_fin_range, ← bigSep_rev Φ]
  exact .of_eq (bigSep_congr fun i _ => congrArg Φ (lane_of_eq rfl))

omit [FloatOps F] in
theorem remB_succ (c : Dev nD) (r : ℕ) (i : Fin 15) (h : r + i.val = 14) : remB c (r + 1) = remB c r + tallyAt (barCell (up c i)) () 1 := by
  rw [← lane_of_add h]; rfl
omit [FloatOps F] in
theorem remR_succ (c : Dev nD) (r : ℕ) (i : Fin 15) (h : r + i.val = 14) : remR c (r + 1) = remR c r + tallyAt (recvCell (up c i) i) () N := by
  rw [← lane_of_add h]; rfl

end Cert.Kernel.Proto

end
-- ==== Proof.B_StepsDefs.lean ====
import proofs.«900769_g7700000000000770_dist_diff_adaln_cshard_i_b4_s512_c256_v7x_i16_bf16_1_alg».proof.Proof.B_Ghost
import proofs.«900769_g7700000000000770_dist_diff_adaln_cshard_i_b4_s512_c256_v7x_i16_bf16_1_alg».proof.Proof.B_Lanes

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The records hold every cell's invariant, -/
theorem records_cell (K : Dev nD × CK → ℕ) (ck : Dev nD × CK) : records m ρ K ⊢ cellInv ER (sched m ρ) (K ck) (kcell ck) := by
  unfold records
  exact (Idealize.SL.BI.sep_and.trans Idealize.SL.BI.and_elimL).trans (bigSep_elim (Finset.mem_univ ck))
/-- and that every cell has reached round 0. -/
theorem records_reached (K : Dev nD × CK → ℕ) (ck : Dev nD × CK) : records m ρ K ⊢ reached ER (kcell ck) 0 := by
  unfold records
  exact (Idealize.SL.BI.sep_and.trans Idealize.SL.BI.and_elimR).trans (bigSep_elim (Finset.mem_univ ck))

def owesAny (c : Dev nD) (O : CellTallies nD τ sig Unit) : sProp 𝕄 := iprop(∃ W, owes (c : Thread nD τ) O W)

def slotAny (c : Dev nD) (s : Fin 16) : sProp 𝕄 := iprop(∃ f, slotPts c s fullShare f)

def ΦSig (c : Dev nD) (i : Fin 15) : sProp 𝕄 := iprop(dutyTok ER (barCell (up c i)) 0 i ∗ slotAny c (slotOf (rev i)))
def SigSt (c : Dev nD) (r : ℕ) : sProp 𝕄 := iprop(fromEnd (ΦSig (F := F) c) r ∗ owesAny c (remB c r))

def ΦSend (c : Dev nD) (k : Fin 15) : sProp 𝕄 :=
  iprop(dutyTok ER (sendCell c k) 0 (0 : Fin 15) ∗ dutyTok ER (recvCell (up c k) k) 0 (0 : Fin 15) ∗ slotAny (up c k) (slotOf k)
    ∗ slotPts c 0 (laneShare k) (lift (partC m ρ c)))
def ΦCred (c : Dev nD) (k : Fin 15) : sProp 𝕄 := cred (tallyAt (sendCell c k) () N)
def SendSt (c : Dev nD) (r j : ℕ) : sProp 𝕄 :=
  iprop(fromEnd (ΦSend m ρ c) r ∗ owesAny c (remR c r) ∗ fromStart (ΦCred (F := F) c) j)

def ΦWS (c : Dev nD) (k : Fin 15) : sProp 𝕄 := iprop(atPos ER (sendCell c k) 0 ∅ 0 ∗ cred (tallyAt (sendCell c k) () N))
def ΦDS (c : Dev nD) (k : Fin 15) : sProp 𝕄 := iprop(slotPts c 0 (laneShare k) (lift (partC m ρ c)) ∗ semVal (sendCell c k) 0)
def ΦWR (c : Dev nD) (k : Fin 15) : sProp 𝕄 := iprop(atPos ER (recvCell c k) 0 ∅ 0 ∗ cred (tallyAt (recvCell c k) () N))
def ΦDR (c : Dev nD) (k : Fin 15) : sProp 𝕄 :=
  iprop(slotPts c (slotOf k) fullShare (lift (partC m ρ (dn c k))) ∗ semVal (recvCell c k) 0)
def WaitSt (c : Dev nD) (rS jS rR jR : ℕ) : sProp 𝕄 :=
  iprop(fromEnd (ΦWS (F := F) c) rS ∗ fromStart (ΦDS m ρ c) jS ∗ fromEnd (ΦWR (F := F) c) rR ∗ fromStart (ΦDR m ρ c) jR ∗ owesAny c 0)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.Proto

end
-- ==== Proof.B_StepSig.lean ====
import proofs.«900769_g7700000000000770_dist_diff_adaln_cshard_i_b4_s512_c256_v7x_i16_bf16_1_alg».proof.Proof.B_StepsDefs
import proofs.«900769_g7700000000000770_dist_diff_adaln_cshard_i_b4_s512_c256_v7x_i16_bf16_1_alg».proof.Proof.B_Sched

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

theorem sig_barPay_intro (c : Dev nD) (i : Fin 15)
    (f : Buf (Elt F) ((slotM (slotOf (rev i)) : Memref sig .tc .vmem S8x512 .f32).view.loc (c : Thread nD τ))) :
    iprop(slotPts c (slotOf (rev i)) fullShare f ∗ reached ER (recvCell c (rev i)) 0)
      ⊢ (sched (F := F) m ρ).payload (barCell (up c i)) 0 i := by
  rw [payload_bar]; unfold barPay; rw [up_up_rev]
  iintro ⟨H, #Hr⟩
  isplitl [H]; · iexists f; iexact H
  iexact Hr

theorem signal_step (c : Dev nD) (r : ℕ) (i : Fin 15) (h : r + i.val = 14) {k' : ℕ} (hk' : k' = 1)
    {α : Type} {Q : α → sProp 𝕄} {k : PUnit → Prog (TpuEff nD τ sig (Elt F) Λ₀ .tc) α} :
    records m ρ K
      ⊢ iprop(SigSt (F := F) c (r + 1) -∗ (SigSt (F := F) c r -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((up c i : Dev nD) : Thread nD τ) barS k') k) Q) := by
  subst hk'
  unfold SigSt
  rw [fromEnd_succ (ΦSig (F := F) c) r i h, remB_succ c r i h]
  unfold ΦSig owesAny slotAny
  iintro #HK ⟨⟨Hrest, Htok, ⟨%f, Hslot⟩⟩, ⟨%W, HO⟩⟩ Hk
  iapply (wp_signal 𝒱₀ ER (sched m ρ) (c : Thread nD τ) none (dst := ((up c i : Dev nD) : Thread nD τ)) (sem := barS) (r := 0) (d := i)
    (κ := K (up c i, none))
    (by rw [duties_bar]; exact Finset.mem_univ _) (amount_bar m ρ (up c i) i) () (remB c r) rfl) $$ [HO Htok Hslot]
  · isplitr
    · iapply (records_cell m ρ K (up c i, none)); iexact HK
    isplitl [HO]; · iexact HO
    isplitl [Htok]; · iexact Htok
    isplitl [Hslot]
    · iapply (sig_barPay_intro m ρ c i f)
      isplitl [Hslot]; · iexact Hslot
      iapply (records_reached m ρ K (c, some (true, rev i))); iexact HK
    iapply (records_reached m ρ K (up c i, none)); iexact HK
  iintro HO
  iapply Hk
  isplitl [Hrest]; · iexact Hrest
  iexists W; iexact HO

theorem bar_wait_step (c : Dev nD) {k' : ℕ} (hk' : k' = 15)
    (hmw : (levAts L lv : sProp 𝕄) ⊢ MayWait (c : Thread nD τ) (.reg barS) () (remR c 15))
    {α : Type} {Q : α → sProp 𝕄} {k : PUnit → Prog (TpuEff nD τ sig (Elt F) Λ₀ .tc) α} :
    iprop(records m ρ K ∗ levAts L lv ∗ cred (tallyAt (barCell c) () 15) ∗ atPos ER (barCell c) 0 ∅ 0 ∗ owesAny (F := F) c (remR c 15))
      ⊢ iprop(((owesAny (F := F) c (remR c 15) ∗ bigSep Finset.univ (fun i : Fin 15 => barPay (F := F) c i)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owesAny
  iintro ⟨#HK, Hlev, Hcred, Hat, ⟨%W, HO⟩⟩ Hk
  iapply (wp_wait_rest_token 𝒱₀ ER (sched m ρ) (c : Thread nD τ) none (wpE_semWait_eq 𝒱₀ (c : Thread nD τ) none Set.univ)
    (Set.mem_univ (K (c, none))) () (O := remR c 15) (R := 0) (T := ∅) (m := 0) (by rw [expect_bar])) $$ [Hcred HO Hlev Hat]
  · isplitr
    · iapply (records_cell m ρ K (c, none)); iexact HK
    iframe Hcred HO Hat; iapply hmw; iexact Hlev
  iintro ⟨HO, -, -, Hrest⟩
  ihave Hpays := (Entails.of_eq (rest_bar m ρ c)) $$ Hrest
  iapply Hk; iframe Hpays; iexists _; iexact HO

end Cert.Kernel.Proto

end
-- ==== Proof.B_Slots.lean ====
import proofs.«900769_g7700000000000770_dist_diff_adaln_cshard_i_b4_s512_c256_v7x_i16_bf16_1_alg».proof.Proof.B_Ghost
import Idealize.ShloMosaic.Lib.Pipeline.Value
import Idealize.ShloMosaic.Rules.PointsTo
import Idealize.ShloMosaic.Lib.Writes
import Idealize.ShloMosaic.Lib.ValueLayout

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem slot_set (k : Fin 16) : (slotM k).view.set = (slotR k).set :=
  (View.set_reshape _ _).trans (View.set_slice_whole _ _)

/-- Slot `k` is the indices whose first coordinate is `k`. -/
theorem mem_slot (k : Fin 16) (i : S16x8x512.Idx) :
    i ∈ (slotM k).view.set ↔ (i 0).val = k.val := by
  refine (iff_of_eq (congrArg (i ∈ ·) (slot_set k))).trans (Rect.mem_set_unit.trans ⟨fun h => ?_, fun h a => ?_⟩)
  · have h0 : k.val ≤ (i 0).val ∧ (i 0).val < k.val + 1 := h 0
    omega
  · match a with
    | ⟨0, _⟩ => exact ⟨h.ge, Nat.lt_succ_of_le h.le⟩
    | ⟨1, _⟩ => exact ⟨Nat.zero_le _, (i 1).isLt⟩
    | ⟨2, _⟩ => exact ⟨Nat.zero_le _, (i 2).isLt⟩

theorem slot_disjoint (k k' : Fin 16) (h : k ≠ k') :
    Disjoint (slotM k).view.set (slotM k').view.set :=
  Finset.disjoint_left.mpr fun i h1 h2 => h (Fin.ext (((mem_slot k i).mp h1).symm.trans ((mem_slot k' i).mp h2)))

theorem slots_cover :
    (Finset.univ : Finset S16x8x512.Idx)
      = (Finset.univ : Finset (Fin 16)).biUnion fun k => (slotM k).view.set :=
  (Finset.eq_univ_of_forall fun i => Finset.mem_biUnion.mpr ⟨⟨_, (i 0).isLt⟩, Finset.mem_univ _, (mem_slot _ i).mpr rfl⟩).symm

theorem univ_erase_zero : (Finset.univ : Finset (Fin 16)).erase 0
    = (Finset.univ : Finset (Fin 15)).map ⟨slotOf, fun a b h => Fin.ext (Nat.succ.inj (congrArg Fin.val h))⟩ := by
  decide

theorem scr_split (c : Dev nD) (f : Buf (Elt F) ((c : Thread nD τ).loc cc0_scratch0)) :
    (((c : Thread nD τ).loc cc0_scratch0) ↦{fullShare} f : sProp 𝕄)
      ⊣⊢ iprop(slotPts c 0 fullShare f ∗ bigSep Finset.univ (fun k : Fin 15 => slotPts c (slotOf k) fullShare f)) := by
  refine BiEntails.of_eq ?_
  show (((c : Thread nD τ).loc cc0_scratch0) ↦[Finset.univ]{fullShare} f : sProp 𝕄) = _
  rw [show (Finset.univ : Finset (Idx ((c : Thread nD τ).loc cc0_scratch0))) = _ from slots_cover,
    pointsTo_biUnion _ _ fun k _ k' _ => slot_disjoint k k', bigSep_univ_split (0 : Fin 16), univ_erase_zero, bigSep_map]
  rfl

theorem cM_setOn (M : Finset S16x8x512.Idx) : cM.view.setOn M = M :=
  Finset.map_refl

abbrev r0a : Rect S16x8x512 := Rect.unit (s := S16x8x512) ![0, 0, 0] S1x4x512.size inb_S16x8x512_S1x4x512_0_0_0
abbrev r0b : Rect S16x8x512 := Rect.unit (s := S16x8x512) ![0, 4, 0] S1x4x512.size inb_S16x8x512_S1x4x512_0_4_0

/-- A rectangle whose first axis is the one coordinate `k` lies in slot `k`. -/
theorem sl_unit_sub {o z : Fin S16x8x512.rank → ℕ} {h} (k : Fin 16) (h0 : o 0 = k.val) (h1 : z 0 = 1) :
    (Rect.unit (s := S16x8x512) o z h).set ⊆ (slotM k).view.set := fun x hx =>
  (mem_slot k x).mpr (by have := (Rect.mem_set_unit.mp hx) 0; omega)

theorem load0a_sub : cM.view.setOn r0a.toLoadRect.set
    ⊆ (slotM 0).view.set := (cM_setOn _).trans_subset (sl_unit_sub 0 rfl rfl)

theorem load0b_sub : cM.view.setOn r0b.toLoadRect.set
    ⊆ (slotM 0).view.set := (cM_setOn _).trans_subset (sl_unit_sub 0 rfl rfl)

theorem store0a_sub : (cM.access r0a).setOn Finset.univ
    ⊆ (slotM 0).view.set := (View.set_slice_whole _ _).trans_subset (sl_unit_sub 0 rfl rfl)

theorem store0b_sub : (cM.access r0b).setOn Finset.univ
    ⊆ (slotM 0).view.set := (View.set_slice_whole _ _).trans_subset (sl_unit_sub 0 rfl rfl)

theorem loadslot_sub (s : Fin 16) : cM.view.setOn (slotR s).toLoadRect.set
    ⊆ (slotM s).view.set := (cM_setOn _).trans_subset (slot_set s).ge

/-- Indices of a rank-three array agree when their three coordinates do. -/
theorem sl_ext3 {d : Fin 3 → ℕ} {x y : (a : Fin 3) → Fin (d a)} (h0 : (x 0).val = (y 0).val) (h1 : (x 1).val = (y 1).val)
    (h2 : (x 2).val = (y 2).val) : x = y := by
  funext a; apply Fin.ext
  match a with
  | ⟨0, _⟩ => exact h0
  | ⟨1, _⟩ => exact h1
  | ⟨2, _⟩ => exact h2

theorem sl_om (n : ℕ) : 0 + 1 * n = n := by omega

theorem read_slot (s : Fin 16) (v : Vec F S1x8x512 .f32) :
    cM.view.readAt (Elt F) (slotR s).toLoadRect (lift v) = v := by
  funext x
  show lift v ((slotR s).toLoadRect.idx x) = v x
  unfold lift
  exact congrArg v (sl_ext3 (Nat.lt_one_iff.mp (x 0).isLt).symm (sl_om (x 1).val) (sl_om (x 2).val))

theorem slot_emb (k : Fin 16) (p : Fin 8) (q : Fin 512) :
    (slotM k).view.emb (ix2 p q) = ix3 k p q :=
  (show (slotM k).view.emb (ix2 p q) = (slotR k).emb (ix3 (⟨0, Nat.one_pos⟩ : Fin 1) p q) from
    congrArg (slotR k).emb (reshapeEquiv_ix2_1ab _ p q)).trans (sl_ext3 rfl (sl_om p.val) (sl_om q.val))

/-- A full write through a view puts entry `y` of what is written where the view places `y`. -/
theorem sl_write_at {κ : Kind} {sp : Space} {s : Shape} {e : EltTy} (v : View sig κ sp s e) (f : v.ty.Contents (Elt F)) (w : s.Idx → Elt F e)
    {y : s.Idx} {i : v.ty.Idx} (h : v.emb y = i) :
    v.write (Elt F) f w Finset.univ i = cast (congrArg (Elt F) v.elt_eq.symm) (w y) := by
  subst h; exact View.write_emb_of_mem f w (Finset.mem_univ y)

/-- Contents that agree on slot `k` are one contents there. -/
theorem slotPts_congr (c : Dev nD) (k : Fin 16) (q : PosShare TreeShare) {f g : (cc0_scratch0 : Ref sig .tc).ty.Contents (Elt F)}
    (h : ∀ i : S16x8x512.Idx, (i 0).val = k.val → f i = g i) : slotPts c k q f ⊢ slotPts c k q g :=
  Entails.of_eq (by unfold slotPts; exact pointsTo_congr fun i hi => h i ((mem_slot k i).mp hi))

theorem slot0_stored (c : Dev nD) (f : (cc0_scratch0 : Ref sig .tc).ty.Contents (Elt F)) (x : Vec F S4x512x256 .f32) :
    slotPts c 0 fullShare ((cM.access r0b).write (Elt F)
        ((cM.access r0a).write (Elt F) f (k0_pay2 x) Finset.univ) (k0_pay3 x) Finset.univ)
      ⊢ slotPts c 0 fullShare (lift (KOut.partOf x)) := slotPts_congr c 0 _ fun i hi0 => by
  have h8 : (i 1).val < 8 := (i 1).isLt
  by_cases h : (i 1).val < 4
  · refine ((View.write_of_not_mem _ _ _ fun hm => ?_).trans ((sl_write_at (cM.access r0a) f (k0_pay2 x)
      (y := ix3 0 ⟨(i 1).val, h⟩ ⟨(i 2).val, (i 2).isLt⟩)
      (sl_ext3 hi0.symm (sl_om (i 1).val) (sl_om (i 2).val))).trans (cast_eq _ _))).trans (dif_pos h).symm
    rw [show (cM.access r0b).setOn Finset.univ = r0b.set from View.set_slice_whole _ _] at hm
    have h1 : 4 ≤ (i 1).val := ((Rect.mem_set_unit.mp hm) 1).1
    omega
  · refine Eq.trans ?_ (dif_neg h).symm
    exact (sl_write_at (cM.access r0b) _ (k0_pay3 x)
      (y := ix3 0 ⟨(i 1).val - 4, by omega⟩ ⟨(i 2).val, (i 2).isLt⟩)
      (sl_ext3 hi0.symm (show 4 + 1 * ((i 1).val - 4) = (i 1).val by omega) (sl_om (i 2).val))).trans (cast_eq _ _)

theorem landed_eq (c' : Dev nD) (k : Fin 15)
    (fd : Buf (Elt F) ((slotM (slotOf k)).view.loc (c' : Thread nD τ))) (v : Vec F S1x8x512 .f32) :
    ((slotM (slotOf k)).view.loc (c' : Thread nD τ)
        ↦[(slotM (slotOf k)).view.set]{fullShare}
          ((slotM (slotOf k)).view.write (Elt F) fd
            ((slotM 0).view.read (Elt F) (lift v)) Finset.univ) : sProp 𝕄)
      ⊢ slotPts c' (slotOf k) fullShare (lift v) := slotPts_congr c' (slotOf k) _ fun i hi0 => by
  have ej : (slotM (slotOf k)).view.emb
      (ix2 ⟨(i 1).val, (i 1).isLt⟩ ⟨(i 2).val, (i 2).isLt⟩) = i :=
    (slot_emb (slotOf k) _ _).trans (sl_ext3 hi0.symm rfl rfl)
  rw [sl_write_at _ fd _ ej, View.read_apply, slot_emb, cast_cast, cast_eq]
  rfl

/-- Sixteen slots held at sixteen contents are the buffer at some contents. -/
theorem scr_join (c : Dev nD) (f0 : (cc0_scratch0 : Ref sig .tc).ty.Contents (Elt F))
    (fk : Fin 15 → (cc0_scratch0 : Ref sig .tc).ty.Contents (Elt F)) :
    iprop(slotPts c 0 fullShare f0 ∗ bigSep Finset.univ (fun k : Fin 15 => slotPts c (slotOf k) fullShare (fk k)))
      ⊢ scrAny (F := F) c := by
  have h : _ ⊢ (_ : sProp 𝕄) := pointsTo_biUnion_join (ℓ := (c : Thread nD τ).loc cc0_scratch0) (q := fullShare) Finset.univ
    (fun k : Fin 16 => (slotM k).view.set) (Fin.cases (motive := fun _ => _) f0 fk) f0
    fun k _ k' _ => slot_disjoint k k'
  rw [← slots_cover, bigSep_univ_split (0 : Fin 16), univ_erase_zero, bigSep_map] at h
  refine h.trans ?_
  unfold scrAny
  iintro ⟨%g, -, H⟩
  iexists g
  iexact H

theorem credit_eq (s : Fin 16) : (slotM s).view.dmaCredit = N := rfl

theorem amount_eq (k : Fin 15) : (slotM (slotOf k)).view.amount (.dma (recvS k)) = N := rfl

end Cert.Kernel.Proto

end
-- ==== Proof.B_PartsDefs.lean ====
import proofs.«900769_g7700000000000770_dist_diff_adaln_cshard_i_b4_s512_c256_v7x_i16_bf16_1_alg».proof.Proof.B_StepsDefs

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev barV : Sems sig S_ := SemArray.scalar (sig.barrier 0 rfl)

def inPts (c : Dev nD) : sProp 𝕄 :=
  iprop((((c : Thread nD τ).loc cc0_stg0_0) ↦{fullShare} xstg m ρ c) ∗ (((c : Thread nD τ).loc cc0_stg1_0) ↦{fullShare} tstg m ρ c)
    ∗ (((c : Thread nD τ).loc cc0_stg2_0) ↦{fullShare} wsstg m ρ c) ∗ (((c : Thread nD τ).loc cc0_stg3_0) ↦{fullShare} whstg m ρ c))

end Cert.Kernel.Proto

end
-- ==== Proof.B_Reads.lean ====
import proofs.«900769_g7700000000000770_dist_diff_adaln_cshard_i_b4_s512_c256_v7x_i16_bf16_1_alg».proof.Proof.B_StepSig
import proofs.«900769_g7700000000000770_dist_diff_adaln_cshard_i_b4_s512_c256_v7x_i16_bf16_1_alg».proof.Proof.B_Slots
import proofs.«900769_g7700000000000770_dist_diff_adaln_cshard_i_b4_s512_c256_v7x_i16_bf16_1_alg».proof.Proof.B_Levels
import proofs.«900769_g7700000000000770_dist_diff_adaln_cshard_i_b4_s512_c256_v7x_i16_bf16_1_alg».proof.Proof.B_PartsDefs
import proofs.«900769_g7700000000000770_dist_diff_adaln_cshard_i_b4_s512_c256_v7x_i16_bf16_1_alg».proof.Proof.Gen.Kernel.Skeleton

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

omit [FloatOps F] in
/-- A whole array read back is itself. -/
theorem read_x (f : (cc0_stg0_0 : Ref sig .tc).ty.Contents (Elt F)) :
    (xM : Memref sig .tc .vmem S4x512x256 .f32).view.readAt (Elt F) (Rect.unit (s := S4x512x256) ![0, 0, 0] S4x512x256.size inb_S4x512x256_S4x512x256_0_0_0).toLoadRect f = f :=
  Memref.readAt_unit_zero (Elt F) cc0_stg0_0 hz3 _ f
omit [FloatOps F] in
theorem read_t (f : (cc0_stg1_0 : Ref sig .tc).ty.Contents (Elt F)) :
    (tM : Memref sig .tc .vmem S4x128 .f32).view.readAt (Elt F) (Rect.unit (s := S4x128) ![0, 0] S4x128.size inb_S4x128_S4x128_0_0).toLoadRect f = f :=
  Memref.readAt_unit_zero (Elt F) cc0_stg1_0 hz2 _ f
omit [FloatOps F] in
theorem read_ws (f : (cc0_stg2_0 : Ref sig .tc).ty.Contents (Elt F)) :
    (wsM : Memref sig .tc .vmem S128x256 .f32).view.readAt (Elt F) (Rect.unit (s := S128x256) ![0, 0] S128x256.size inb_S128x256_S128x256_0_0).toLoadRect f = f :=
  Memref.readAt_unit_zero (Elt F) cc0_stg2_0 hz2 _ f
omit [FloatOps F] in
theorem read_wh (f : (cc0_stg3_0 : Ref sig .tc).ty.Contents (Elt F)) :
    (whM : Memref sig .tc .vmem S128x256 .f32).view.readAt (Elt F) (Rect.unit (s := S128x256) ![0, 0] S128x256.size inb_S128x256_S128x256_0_0).toLoadRect f = f :=
  Memref.readAt_unit_zero (Elt F) cc0_stg3_0 hz2 _ f

end Cert.Kernel.Proto

end
-- ==== Proof.B_StepSend.lean ====
import proofs.«900769_g7700000000000770_dist_diff_adaln_cshard_i_b4_s512_c256_v7x_i16_bf16_1_alg».proof.Proof.B_StepsDefs
import proofs.«900769_g7700000000000770_dist_diff_adaln_cshard_i_b4_s512_c256_v7x_i16_bf16_1_alg».proof.Proof.B_Sched
import proofs.«900769_g7700000000000770_dist_diff_adaln_cshard_i_b4_s512_c256_v7x_i16_bf16_1_alg».proof.Proof.B_Slots

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- Lane `k`'s copy pays its send duty with the read share of slot 0, and the receive duty `k + 1` places up with the slot holding this device's block. -/
theorem send_step (c n : Dev nD) (r j : ℕ) (k : Fin 15) (hn : n = up c k) (h : r + k.val = 14) (hj : k.val = j)
    {hsc : (slotM (slotOf k) : Memref sig (Dev.tc n : Thread nD τ).2.kind .vmem S8x512 .f32).view.ref.isScScratch = false}
    {hsrc : (slotM 0 : Memref sig .tc .vmem S8x512 .f32).view.WordExact} {hdst : (slotM (slotOf k) : Memref sig .tc .vmem S8x512 .f32).view.WordExact}
    {hsem : DmaTarget.Typed .vmem (.dma (recvS k)) (.remote (Dev.tc n : Thread nD τ) (slotM (slotOf k) : Memref sig .tc .vmem S8x512 .f32) (.dma (sendS k)) hsc)}
    {α : Type} {Q : α → sProp 𝕄} {kont : PUnit → Prog (TpuEff nD τ sig (Elt F) Λ₀ .tc) α} :
    records m ρ K
      ⊢ iprop(SendSt m ρ c (r + 1) j -∗ (SendSt m ρ c r (j + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM 0 : Memref sig .tc .vmem S8x512 .f32) (.remote (Dev.tc n : Thread nD τ) (slotM (slotOf k) : Memref sig .tc .vmem S8x512 .f32) (.dma (sendS k)) hsc) (.dma (recvS k)) hsrc hdst hsem) kont) Q) := by
  subst hn
  have eΦ : ΦSend m ρ c k = iprop(dutyTok ER (sendCell c k) 0 (0 : Fin 15) ∗ dutyTok ER (recvCell (up c k) k) 0 (0 : Fin 15)
      ∗ (∃ f, slotPts (up c k) (slotOf k) fullShare f) ∗ slotPts c 0 (laneShare k) (lift (partC m ρ c))) := rfl
  have eC : ΦCred (F := F) c k = cred (tallyAt (sendCell c k) () N) := rfl
  unfold SendSt
  rw [fromEnd_succ (ΦSend m ρ c) r k h, fromStart_succ (ΦCred (F := F) c) j k hj, eΦ, eC]
  unfold owesAny slotPts
  iintro #Hrec ⟨⟨Hrest, Ht1, Ht2, ⟨%fd, Hdst⟩, Hsrc⟩, ⟨%W, HO⟩, Hcr⟩ Hk
  ihave #HI1 := (records_cell m ρ K (c, some (false, k))) $$ Hrec
  ihave #HI2 := (records_cell m ρ K (up c k, some (true, k))) $$ Hrec
  ihave #HR1 := (records_reached m ρ K (c, some (false, k))) $$ Hrec
  ihave #HR2 := (records_reached m ρ K (up c k, some (true, k))) $$ Hrec
  have hrule := wp_send_pointsTo (Γ := .empty) (defs := defs₀ (F := F)) 𝒱₀ ER (sched m ρ) (c : Thread nD τ) none
    (hsc := hsc) (hsrc := hsrc) (hdst := hdst) (hsem := hsem) (Es := Set.univ) (Q := Q)
    (src := (slotM 0 : Memref sig .tc .vmem S8x512 .f32)) (dst := (slotM (slotOf k) : Memref sig .tc .vmem S8x512 .f32))
    (c' := (Dev.tc (up c k) : Thread nD τ)) (sS := .dma (sendS k)) (sem := .dma (recvS k)) (k := kont)
    (q := laneShare k) (fs := lift (partC m ρ c)) (fd := fd) (W := W)
    (r₁ := 0) (r₂ := 0) (d₁ := (0 : Fin 15)) (d₂ := (0 : Fin 15))
    (κ₁ := K (c, some (false, k))) (κ₂ := K (up c k, some (true, k)))
    (by rw [duties_send]; exact Finset.mem_singleton_self _) (by rw [duties_recv]; exact Finset.mem_singleton_self _)
    () () N (amount_eq k) (amount_send m ρ c k 0) (amount_recv m ρ (up c k) k 0)
    (O₀ := remR c (r + 1)) (remR c r) (remR_succ c r k h)
    (by rw [payload_send]; exact Entails.refl _)
    (by rw [payload_recv]; unfold recvPay; rw [Ring.dn_up]; exact landed_eq (up c k) k fd (partC m ρ c))
  iapply hrule $$ [Ht1 Ht2 Hdst Hsrc HO] [Hk Hrest Hcr]
  · isplitl []; · iexact HI1
    isplitl []; · iexact HI2
    iframe Hsrc Hdst HO Ht1 Ht2
    isplitl []; · iexact HR1
    iexact HR2
  · iintro ⟨Hc, HO'⟩
    iapply Hk; iframe Hrest Hcr Hc; iexists W; iexact HO'

end Cert.Kernel.Proto

end
-- ==== Proof.B_StepWait.lean ====
import proofs.«900769_g7700000000000770_dist_diff_adaln_cshard_i_b4_s512_c256_v7x_i16_bf16_1_alg».proof.Proof.B_StepsDefs
import proofs.«900769_g7700000000000770_dist_diff_adaln_cshard_i_b4_s512_c256_v7x_i16_bf16_1_alg».proof.Proof.B_Sched
import proofs.«900769_g7700000000000770_dist_diff_adaln_cshard_i_b4_s512_c256_v7x_i16_bf16_1_alg».proof.Proof.B_Slots

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

theorem waitS_step (c : Dev nD) (rS jS rR jR : ℕ) (k : Fin 15) (h : rS + k.val = 14) (hj : k.val = jS)
    {a b : Memref sig .tc .vmem S8x512 .f32} {ha : a.view.WordExact} {hb : b.view.WordExact} (hamt : b.view.dmaCredit = N)
    {α : Type} {Q : α → sProp 𝕄} {kont : PUnit → Prog (TpuEff nD τ sig (Elt F) Λ₀ .tc) α} :
    records m ρ K
      ⊢ iprop(WaitSt m ρ c (rS + 1) jS rR jR -∗ (WaitSt m ρ c rS (jS + 1) rR jR -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS k) a b ha hb) kont) Q) := by
  have hw : ∀ K' : PUnit → sProp 𝕄,
      wpE (defs₀ (F := F)) 𝒱₀ (c : Thread nD τ) none Set.univ (.waitDma2 (sendS k) a b ha hb) K'
        = waitSpec (c : Thread nD τ) Set.univ (.dma (sendS k)) N K' := fun K' => by
    rw [wpE_waitDma2_eq, hamt]
  have hk : 0 + N = (sched m ρ).expect (sendCell c k) 0 := by rw [zero_add, expect_send]
  unfold WaitSt owesAny
  rw [fromEnd_succ (ΦWS (F := F) c) rS k h, fromStart_succ (ΦDS m ρ c) jS k hj]
  unfold ΦWS ΦDS
  iintro #HI ⟨⟨HE, Hat, Hc⟩, HDS, HWR, HDR, ⟨%W, How⟩⟩ Hk
  iapply (Rounds.wp_wait_rest_token 𝒱₀ ER (sched m ρ) (c : Thread nD τ) none hw
      (Set.mem_univ (K (c, some (false, k)))) () (O := 0) (W := W) (R := 0) (T := ∅) (m := 0) hk) $$ [Hc How Hat]
  · isplitr; · iapply (records_cell m ρ K (c, some (false, k))); iexact HI
    iframe Hc How Hat; rw [MayWait_zero]; iempintro
  rw [rest_send m ρ c k]
  unfold sendPay
  iintro ⟨How, Hat, -, Hpay⟩
  imod (Rounds.cell_close ER (sched m ρ) (g := sendCell c k) (Set.mem_univ (K (c, some (false, k)))) (fun hu => hu) (R := 0 + 1)
    (fun r hr => duties_later m ρ (sendCell c k) r hr)) $$ [Hat] with Hz
  · isplitr; · iapply (records_cell m ρ K (c, some (false, k))); iexact HI
    iexact Hat
  iapply Hk; iframe HE HDS Hpay Hz HWR HDR; iexists _; iexact How

theorem waitR_step (c : Dev nD) (rS jS rR jR : ℕ) (k : Fin 15) (h : rR + k.val = 14) (hj : k.val = jR)
    {a b : Memref sig .tc .vmem S8x512 .f32} {ha : a.view.WordExact} {hb : b.view.WordExact} (hamt : b.view.dmaCredit = N)
    {α : Type} {Q : α → sProp 𝕄} {kont : PUnit → Prog (TpuEff nD τ sig (Elt F) Λ₀ .tc) α} :
    records m ρ K
      ⊢ iprop(WaitSt m ρ c rS jS (rR + 1) jR -∗ (WaitSt m ρ c rS jS rR (jR + 1) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS k) a b ha hb) kont) Q) := by
  have hw : ∀ K' : PUnit → sProp 𝕄,
      wpE (defs₀ (F := F)) 𝒱₀ (c : Thread nD τ) none Set.univ (.waitDma2 (recvS k) a b ha hb) K'
        = waitSpec (c : Thread nD τ) Set.univ (.dma (recvS k)) N K' := fun K' => by
    rw [wpE_waitDma2_eq, hamt]
  have hk : 0 + N = (sched m ρ).expect (recvCell c k) 0 := by rw [zero_add, expect_recv]
  unfold WaitSt owesAny
  rw [fromEnd_succ (ΦWR (F := F) c) rR k h, fromStart_succ (ΦDR m ρ c) jR k hj]
  unfold ΦWR ΦDR
  iintro #HI ⟨HWS, HDS, ⟨HE, Hat, Hc⟩, HDR, ⟨%W, How⟩⟩ Hk
  iapply (Rounds.wp_wait_rest_token 𝒱₀ ER (sched m ρ) (c : Thread nD τ) none hw
      (Set.mem_univ (K (c, some (true, k)))) () (O := 0) (W := W) (R := 0) (T := ∅) (m := 0) hk) $$ [Hc How Hat]
  · isplitr; · iapply (records_cell m ρ K (c, some (true, k))); iexact HI
    iframe Hc How Hat; rw [MayWait_zero]; iempintro
  rw [rest_recv m ρ c k]
  unfold recvPay
  iintro ⟨How, Hat, -, Hpay⟩
  imod (Rounds.cell_close ER (sched m ρ) (g := recvCell c k) (Set.mem_univ (K (c, some (true, k)))) (fun hu => hu) (R := 0 + 1)
    (fun r hr => duties_later m ρ (recvCell c k) r hr)) $$ [Hat] with Hz
  · isplitr; · iapply (records_cell m ρ K (c, some (true, k))); iexact HI
    iexact Hat
  iapply Hk; iframe HWS HDS HE HDR Hpay Hz; iexists _; iexact How

/-- A load of slot `k + 1` once lane `k`'s receive wait is done reads the block of the device `k + 1` places down. -/
theorem load_slot_step (c : Dev nD) (rS jS rR jR : ℕ) (k : Fin 15) (hj : k.val + 1 = jR)
    {hl : (cM : Memref sig .tc .vmem S16x8x512 .f32).view.LoadsAt (slotR (slotOf k)).toLoadRect}
    {α : Type} {Q : α → sProp 𝕄} {kont : ((slotR (slotOf k)).toLoadRect.shape.Idx → Elt F .f32) → Prog (TpuEff nD τ sig (Elt F) Λ₀ .tc) α} :
    WaitSt m ρ c rS jS rR jR
      ⊢ iprop((WaitSt m ρ c rS jS rR jR -∗ wp frame (wpE (defs₀ (F := F)) 𝒱₀ (c : Thread nD τ) none) Set.univ (kont (partC m ρ (dn c k))) Q)
          -∗ wp frame (wpE (defs₀ (F := F)) 𝒱₀ (c : Thread nD τ) none) Set.univ (.op (.load (cM : Memref sig .tc .vmem S16x8x512 .f32) (slotR (slotOf k)).toLoadRect hl) kont) Q) := by
  subst hj
  unfold WaitSt
  rw [fromStart_succ (ΦDR m ρ c) k.val k rfl]
  unfold ΦDR slotPts
  iintro ⟨HWS, HDS, HWR, ⟨HDR, Hs, Hz⟩, How⟩ Hk
  iapply (wp_load 𝒱₀ (c : Thread nD τ) none Set.univ (m := (cM : Memref sig .tc .vmem S16x8x512 .f32))
      (r := (slotR (slotOf k)).toLoadRect) (q := fullShare) (f := lift (partC m ρ (dn c k))) (loadslot_sub (slotOf k))) $$ [Hs]
  · iexact Hs
  rw [read_slot (slotOf k) (partC m ρ (dn c k))]
  iintro Hs
  iapply Hk; iframe

/-- A load of slot 0 at the share the copies left reads the device's own block. -/
theorem load_own_step (c : Dev nD)
    {hl : (cM : Memref sig .tc .vmem S16x8x512 .f32).view.LoadsAt (slotR 0).toLoadRect}
    {α : Type} {Q : α → sProp 𝕄} {kont : ((slotR 0).toLoadRect.shape.Idx → Elt F .f32) → Prog (TpuEff nD τ sig (Elt F) Λ₀ .tc) α} :
    slotPts c 0 restShare (lift (partC m ρ c))
      ⊢ iprop((slotPts c 0 restShare (lift (partC m ρ c)) -∗ wp frame (wpE (defs₀ (F := F)) 𝒱₀ (c : Thread nD τ) none) Set.univ (kont (partC m ρ c)) Q)
          -∗ wp frame (wpE (defs₀ (F := F)) 𝒱₀ (c : Thread nD τ) none) Set.univ (.op (.load (cM : Memref sig .tc .vmem S16x8x512 .f32) (slotR 0).toLoadRect hl) kont) Q) := by
  unfold slotPts
  iintro Hs Hk
  iapply (wp_load 𝒱₀ (c : Thread nD τ) none Set.univ (m := (cM : Memref sig .tc .vmem S16x8x512 .f32))
      (S := (slotM 0 : Memref sig .tc .vmem S8x512 .f32).view.set) (q := restShare) (f := lift (partC m ρ c)) (loadslot_sub 0)) $$ [Hs]
  · iexact Hs
  rw [read_slot 0 (partC m ρ c)]
  iintro Hs
  iapply Hk
  iexact Hs

end Cert.Kernel.Proto

end
-- ==== Proof.B_Trans.lean ====
import proofs.«900769_g7700000000000770_dist_diff_adaln_cshard_i_b4_s512_c256_v7x_i16_bf16_1_alg».proof.Proof.B_StepsDefs
import proofs.«900769_g7700000000000770_dist_diff_adaln_cshard_i_b4_s512_c256_v7x_i16_bf16_1_alg».proof.Proof.B_Sched

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def laneAtPos (c : Dev nD) : sProp 𝕄 :=
  iprop((bigSep Finset.univ fun k : Fin 15 => atPos ER (sendCell c k) 0 ∅ 0) ∗ (bigSep Finset.univ fun k : Fin 15 => atPos ER (recvCell c k) 0 ∅ 0))
def sendToks (c : Dev nD) : sProp 𝕄 :=
  iprop((bigSep Finset.univ fun k : Fin 15 => dutyTok ER (recvCell (up c k) k) 0 (0 : Fin 15)) ∗ (bigSep Finset.univ fun k : Fin 15 => dutyTok ER (sendCell c k) 0 (0 : Fin 15)))
def recvCreds (c : Dev nD) : sProp 𝕄 := bigSep Finset.univ fun k : Fin 15 => cred (tallyAt (recvCell c k) () N)

omit [FloatOps F] in
theorem tr_bigSep_BK (Φ : Bool × Fin 15 → sProp 𝕄) :
    bigSep Finset.univ Φ = iprop((bigSep Finset.univ fun k : Fin 15 => Φ (false, k)) ∗ (bigSep Finset.univ fun k : Fin 15 => Φ (true, k))) := by
  rw [bigSep_univ_equiv (Equiv.boolProdEquivSum _).symm Φ, bigSep_univ_sum]
  rfl

omit [FloatOps F] in
theorem tr_bigSep_CK (Φ : CK → sProp 𝕄) :
    bigSep Finset.univ Φ = iprop(Φ none ∗ (bigSep Finset.univ fun k : Fin 15 => Φ (some (false, k))) ∗ (bigSep Finset.univ fun k : Fin 15 => Φ (some (true, k)))) := by
  rw [bigSep_univ_equiv (Equiv.optionEquivSumPUnit.{0, 0} _).symm Φ, bigSep_univ_sum, bigSep_univ_of_subsingleton PUnit.unit, tr_bigSep_BK]
  exact eq_of_equiv sep_comm

omit [FloatOps F] in
theorem tr_bigSep_lanes_mono {Φ Ψ : Fin 15 → sProp 𝕄} (h : ∀ k, Φ k ⊢ Ψ k) : bigSep Finset.univ Φ ⊢ bigSep Finset.univ Ψ :=
  bigSep_mono fun k _ => h k

/-- Slot 0 held whole is its remainder share and the fifteen lanes' read shares. -/
theorem slot0_toks (c : Dev nD) (f : (cc0_scratch0 : Ref sig .tc).ty.Contents (Elt F)) :
    slotPts c 0 fullShare f ⊣⊢ iprop(slotPts c 0 restShare f ∗ bigSep Finset.univ fun k : Fin 15 => slotPts c 0 (laneShare k) f) := by
  unfold slotPts; exact Transfers.pointsTo_toks fullShare 15

theorem T0 (c : Dev nD)
    (hsplit : ∀ f : Buf (Elt F) ((c : Thread nD τ).loc cc0_scratch0), (((c : Thread nD τ).loc cc0_scratch0) ↦{fullShare} f : sProp 𝕄)
      ⊢ iprop(slotPts c 0 fullShare f ∗ bigSep Finset.univ (fun k : Fin 15 => slotPts c (slotOf k) fullShare f))) :
    iprop(linear (F := F) c ∗ scrAny (F := F) c ∗ owesAny (F := F) c (O₀ c))
      ⊢ iprop(SigSt (F := F) c 15 ∗ slotAny (F := F) c 0 ∗ atPos ER (barCell c) 0 ∅ 0 ∗ laneAtPos (F := F) c ∗ sendToks (F := F) c) := by
  have hpos : (bigSep Finset.univ fun j : CK => atPos ER (kcell (c, j)) 0 ∅ 0 : sProp 𝕄)
      = iprop(atPos ER (barCell c) 0 ∅ 0 ∗ (bigSep Finset.univ fun k : Fin 15 => atPos ER (sendCell c k) 0 ∅ 0)
          ∗ (bigSep Finset.univ fun k : Fin 15 => atPos ER (recvCell c k) 0 ∅ 0)) :=
    tr_bigSep_CK _
  unfold linear payToks scrAny SigSt laneAtPos sendToks
  rw [hpos, eq_of_equiv (fromEnd_all _), show bigSep Finset.univ (ΦSig (F := F) c) = _ from bigSep_sep' _ _ _,
    bigSep_rev fun k => slotAny (F := F) c (slotOf k)]
  iintro ⟨⟨⟨Hbar, Hs, Hr⟩, HA, HB, HC⟩, ⟨%f, Hbuf⟩, Howes⟩
  ihave Hsl := hsplit f $$ Hbuf
  icases Hsl with ⟨H0, Hks⟩
  ihave Hks' := (tr_bigSep_lanes_mono fun k => show slotPts (F := F) c (slotOf k) fullShare f ⊢ slotAny (F := F) c (slotOf k) by
    unfold slotAny; iintro H; iexists f; iexact H) $$ Hks
  isplitl [HA Hks' Howes]
  · isplitr [Howes]; · iframe
    iexact Howes
  isplitl [H0]
  · unfold slotAny; iexists f; iexact H0
  iframe

theorem T1 (c : Dev nD) :
    iprop((bigSep Finset.univ fun i : Fin 15 => barPay (F := F) c i) ∗ slotPts c 0 fullShare (lift (partC m ρ c)) ∗ sendToks (F := F) c ∗ owesAny (F := F) c (remR c 15))
      ⊢ iprop(SendSt m ρ c 15 0 ∗ slotPts c 0 restShare (lift (partC m ρ c))) := by
  have hpay : (bigSep Finset.univ fun i : Fin 15 => barPay (F := F) c i)
      ⊢ bigSep Finset.univ fun k : Fin 15 => slotAny (F := F) (up c k) (slotOf k) := by
    rw [← bigSep_rev (fun k : Fin 15 => slotAny (F := F) (up c k) (slotOf k))]
    exact tr_bigSep_lanes_mono fun i => by
      unfold barPay slotAny; iintro ⟨H, -⟩; iexact H
  unfold sendToks SendSt
  rw [eq_of_equiv (fromEnd_all _), show bigSep Finset.univ (ΦSend m ρ c) = _ from bigSep_sep' _ _ _, bigSep_sep', bigSep_sep',
    show fromStart (ΦCred (F := F) c) 0 = iprop(emp) from rfl]
  iintro ⟨Hpay, H0, ⟨HB, HC⟩, Howes⟩
  ihave Hsl := hpay $$ Hpay
  ihave Hcut := (slot0_toks (F := F) c _).1 $$ H0
  icases Hcut with ⟨Hrest, Hlanes⟩
  iframe

theorem T2 (c : Dev nD) :
    iprop(SendSt m ρ c 0 15 ∗ laneAtPos (F := F) c ∗ recvCreds (F := F) c) ⊢ WaitSt m ρ c 15 0 15 0 := by
  unfold SendSt WaitSt laneAtPos recvCreds
  rw [eq_of_equiv (fromEnd_all (ΦWS (F := F) c)), eq_of_equiv (fromEnd_all (ΦWR (F := F) c)),
    show fromStart (ΦCred (F := F) c) 15 = bigSep Finset.univ fun k => cred (tallyAt (sendCell c k) () N) from eq_of_equiv (fromStart_all _),
    show bigSep Finset.univ (ΦWS (F := F) c) = _ from bigSep_sep' _ _ _, show bigSep Finset.univ (ΦWR (F := F) c) = _ from bigSep_sep' _ _ _, show fromStart (ΦDS m ρ c) 0 = iprop(emp) from rfl,
    show fromStart (ΦDR m ρ c) 0 = iprop(emp) from rfl, show remR c 0 = 0 from rfl]
  iintro ⟨⟨-, Howes, Hcred⟩, ⟨Hs, Hr⟩, Hrc⟩
  iframe

theorem T3 (c : Dev nD)
    (hjoin : ∀ (f0 : Buf (Elt F) ((c : Thread nD τ).loc cc0_scratch0)) (fk : Fin 15 → Buf (Elt F) ((c : Thread nD τ).loc cc0_scratch0)),
      iprop(slotPts c 0 fullShare f0 ∗ bigSep Finset.univ (fun k : Fin 15 => slotPts c (slotOf k) fullShare (fk k))) ⊢ scrAny (F := F) c) :
    iprop(WaitSt m ρ c 0 15 0 15 ∗ slotPts c 0 restShare (lift (partC m ρ c))) ⊢ iprop(Φ₁ (F := F) c ∗ owesAny (F := F) c 0) := by
  have hsem : (bigSep Finset.univ fun x : Bool × Fin 15 => (semVal ((c : Thread nD τ), osem x) 0 : sProp 𝕄))
      = iprop((bigSep Finset.univ fun k : Fin 15 => semVal (sendCell c k) 0)
          ∗ bigSep Finset.univ fun k : Fin 15 => semVal (recvCell c k) 0) :=
    tr_bigSep_BK _
  unfold WaitSt Φ₁
  rw [eq_of_equiv (fromStart_all (ΦDS m ρ c)), eq_of_equiv (fromStart_all (ΦDR m ρ c)),
    show bigSep Finset.univ (ΦDS m ρ c) = _ from bigSep_sep' _ _ _, show bigSep Finset.univ (ΦDR m ρ c) = _ from bigSep_sep' _ _ _, hsem,
    show fromEnd (ΦWS (F := F) c) 0 = iprop(emp) from rfl, show fromEnd (ΦWR (F := F) c) 0 = iprop(emp) from rfl]
  iintro ⟨⟨-, ⟨Hlanes, Hss⟩, -, ⟨Hslots, Hsr⟩, Howes⟩, Hrest⟩
  ihave H0 := (slot0_toks (F := F) c _).2 $$ [Hrest Hlanes]
  · iframe
  ihave Hscr := hjoin (lift (partC m ρ c)) (fun k => lift (partC m ρ (dn c k))) $$ [H0 Hslots]
  · iframe
  iframe

end Cert.Kernel.Proto

end
-- ==== Proof.B_BodyVal.lean ====
import proofs.«900769_g7700000000000770_dist_diff_adaln_cshard_i_b4_s512_c256_v7x_i16_bf16_1_alg».proof.Proof.B_Ghost

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

theorem srcDev_lits (c : Dev nD) :
    srcDev c 1 = dn c 0 ∧ srcDev c 2 = dn c 1 ∧ srcDev c 3 = dn c 2 ∧ srcDev c 4 = dn c 3 ∧ srcDev c 5 = dn c 4 ∧ srcDev c 6 = dn c 5
      ∧ srcDev c 7 = dn c 6 ∧ srcDev c 8 = dn c 7 ∧ srcDev c 9 = dn c 8 ∧ srcDev c 10 = dn c 9 ∧ srcDev c 11 = dn c 10 ∧ srcDev c 12 = dn c 11
      ∧ srcDev c 13 = dn c 12 ∧ srcDev c 14 = dn c 13 ∧ srcDev c 15 = dn c 14 := by
  revert c; decide

theorem outC_eq (c : Dev nD) :
    outC m ρ c = k0_pay18 (k0_pay4 (tstg m ρ c) (wsstg m ρ c)) (k0_pay5 (tstg m ρ c) (whstg m ρ c)) (k0_pay6 (xstg m ρ c))
      (k0_pay17 (k0_pay16 (k0_pay15 (k0_pay14 (k0_pay13 (k0_pay12 (k0_pay11 (k0_pay10 (k0_pay9 (k0_pay8 (k0_pay7 (partC m ρ c)) (partC m ρ (dn c 0)))
        (partC m ρ (dn c 1)) (partC m ρ (dn c 2))) (partC m ρ (dn c 3))) (partC m ρ (dn c 4)) (partC m ρ (dn c 5))) (partC m ρ (dn c 6)))
        (partC m ρ (dn c 7)) (partC m ρ (dn c 8))) (partC m ρ (dn c 9))) (partC m ρ (dn c 10))) (partC m ρ (dn c 11)) (partC m ρ (dn c 12)))
        (partC m ρ (dn c 13))) (partC m ρ (dn c 14)) := by
  obtain ⟨h1, h2, h3, h4, h5, h6, h7, h8, h9, h10, h11, h12, h13, h14, h15⟩ := srcDev_lits c
  unfold outC KOut.kout KOut.tot
  simp only [srcDev_zero, h1, h2, h3, h4, h5, h6, h7, h8, h9, h10, h11, h12, h13, h14, h15]

end Cert.Kernel.Proto

end
-- ==== Proof.B_Part28.lean ====
import proofs.«900769_g7700000000000770_dist_diff_adaln_cshard_i_b4_s512_c256_v7x_i16_bf16_1_alg».proof.Proof.B_Reads
import proofs.«900769_g7700000000000770_dist_diff_adaln_cshard_i_b4_s512_c256_v7x_i16_bf16_1_alg».proof.Proof.B_StepSend
import proofs.«900769_g7700000000000770_dist_diff_adaln_cshard_i_b4_s512_c256_v7x_i16_bf16_1_alg».proof.Proof.B_StepWait
import proofs.«900769_g7700000000000770_dist_diff_adaln_cshard_i_b4_s512_c256_v7x_i16_bf16_1_alg».proof.Proof.B_Trans
import proofs.«900769_g7700000000000770_dist_diff_adaln_cshard_i_b4_s512_c256_v7x_i16_bf16_1_alg».proof.Proof.B_BodyVal

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

set_option maxHeartbeats 3200000 in
/-- Fifteen signals, the own partial sums, the barrier wait, fifteen copies, then per lane two waits and the landed block added: the sixteen slots summed in slot order. -/
theorem part28 (c : Dev nD) {Q : FVec F S4x512x256 .bf16 → sProp 𝕄} :
    iprop(records m ρ K
        ∗ (SigSt (F := F) c 15 ∗ slotAny (F := F) c 0 ∗ atPos ER (barCell c) 0 ∅ 0 ∗ laneAtPos (F := F) c ∗ sendToks (F := F) c ∗ levAts L lv
            ∗ creds (F := F) c ∗ inPts m ρ c)
        ∗ (∀ out, iprop(⌜out = outC m ρ c⌝ ∗ Φ₁ (F := F) c ∗ owesAny (F := F) c 0 ∗ inPts m ρ c) -∗ Q out))
      ⊢ wp frame (wpE (defs₀ (F := F)) 𝒱₀ (c : Thread nD τ) none) Set.univ (k0_part28 xM (Memref.isWhole_whole _) tM (Memref.isWhole_whole _) wsM (Memref.isWhole_whole _) whM (Memref.isWhole_whole _) oM (Memref.isWhole_whole _) cM (Memref.isWhole_whole _) cc0_scratch1 cc0_scratch2) Q := by
  rw [k0_part28_eq_skeleton]; unfold k0_part28_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [semSignalWord, semWaitWord, Prog.lift, Prog.bind_op, Prog.bind_ret, Prog.pure_eq_ret, wp_deviceId, dev1_eq c, dev2_eq c, dev3_eq c, dev4_eq c, dev5_eq c, dev6_eq c, dev7_eq c, dev8_eq c, dev9_eq c, dev10_eq c, dev11_eq c, dev12_eq c, dev13_eq c, dev14_eq c, dev15_eq c]
  unfold creds
  iintro ⟨#HR, ⟨H, Hs0, HatB, HatL, Htok, #Hlev, ⟨HcrB, HcrR⟩, Hin⟩, HQ⟩
  iapply (signal_step m ρ K c 14 0 rfl rfl) $$ HR H; iintro H
  iapply (signal_step m ρ K c 13 1 rfl rfl) $$ HR H; iintro H
  iapply (signal_step m ρ K c 12 2 rfl rfl) $$ HR H; iintro H
  iapply (signal_step m ρ K c 11 3 rfl rfl) $$ HR H; iintro H
  iapply (signal_step m ρ K c 10 4 rfl rfl) $$ HR H; iintro H
  iapply (signal_step m ρ K c 9 5 rfl rfl) $$ HR H; iintro H
  iapply (signal_step m ρ K c 8 6 rfl rfl) $$ HR H; iintro H
  iapply (signal_step m ρ K c 7 7 rfl rfl) $$ HR H; iintro H
  iapply (signal_step m ρ K c 6 8 rfl rfl) $$ HR H; iintro H
  iapply (signal_step m ρ K c 5 9 rfl rfl) $$ HR H; iintro H
  iapply (signal_step m ρ K c 4 10 rfl rfl) $$ HR H; iintro H
  iapply (signal_step m ρ K c 3 11 rfl rfl) $$ HR H; iintro H
  iapply (signal_step m ρ K c 2 12 rfl rfl) $$ HR H; iintro H
  iapply (signal_step m ρ K c 1 13 rfl rfl) $$ HR H; iintro H
  unfold inPts slotAny
  icases Hs0 with ⟨%f0, Hs0⟩
  icases Hin with ⟨Hx, Ht, Hws, Hwh⟩
  iapply (signal_step m ρ K c 0 14 rfl (by decide)) $$ HR H; iintro H
  iapply (wp_load 𝒱₀ (c : Thread nD τ) none Set.univ (m := xM) (Finset.subset_univ _)) $$ Hx; iintro Hx
  rw [read_x]
  unfold slotPts
  iapply (wp_load 𝒱₀ (c : Thread nD τ) none Set.univ (m := cM) load0a_sub) $$ Hs0; iintro Hs0
  iapply (wp_store 𝒱₀ (c : Thread nD τ) none Set.univ (m := cM) (r := r0a) (Mk := Finset.univ) store0a_sub) $$ Hs0; iintro Hs0
  iapply (wp_load 𝒱₀ (c : Thread nD τ) none Set.univ (m := cM) load0b_sub) $$ Hs0; iintro Hs0
  iapply (wp_store 𝒱₀ (c : Thread nD τ) none Set.univ (m := cM) (r := r0b) (Mk := Finset.univ) store0b_sub) $$ Hs0; iintro Hs0
  have hst : (((cM : Memref sig .tc .vmem S16x8x512 .f32).access r0b).loc (c : Thread nD τ) ↦[(slotM 0 : Memref sig .tc .vmem S8x512 .f32).view.set]{fullShare}
        (((cM : Memref sig .tc .vmem S16x8x512 .f32).access r0b).write (Elt F) (((cM : Memref sig .tc .vmem S16x8x512 .f32).access r0a).write (Elt F) f0 (k0_pay2 (xstg m ρ c)) Finset.univ) (k0_pay3 (xstg m ρ c)) Finset.univ) : sProp 𝕄)
      ⊢ slotPts c 0 fullShare (lift (partC m ρ c)) := slot0_stored c f0 (xstg m ρ c)
  ihave Hs0 := hst $$ Hs0
  iapply (wp_load 𝒱₀ (c : Thread nD τ) none Set.univ (m := tM) (Finset.subset_univ _)) $$ Ht; iintro Ht
  rw [read_t]
  iapply (wp_load 𝒱₀ (c : Thread nD τ) none Set.univ (m := wsM) (Finset.subset_univ _)) $$ Hws; iintro Hws
  rw [read_ws]
  iapply (wp_load 𝒱₀ (c : Thread nD τ) none Set.univ (m := tM) (Finset.subset_univ _)) $$ Ht; iintro Ht
  rw [read_t]
  iapply (wp_load 𝒱₀ (c : Thread nD τ) none Set.univ (m := whM) (Finset.subset_univ _)) $$ Hwh; iintro Hwh
  rw [read_wh]
  unfold SigSt fromEnd
  icases H with ⟨-, HO⟩
  iapply (bar_wait_step m ρ K c (by decide) (mayWait_bar c)) $$ [HO HcrB HatB]
  · iframe HR Hlev HcrB HatB; iexact HO
  iintro ⟨HO, Hpay⟩
  ihave H1 := (T1 m ρ c) $$ [Hpay Hs0 Htok HO]
  · iframe
  icases H1 with ⟨H, Hs0⟩
  iapply (send_step m ρ K c _ 14 0 0 (dev16_eq c) rfl rfl) $$ HR H; iintro H
  iapply (send_step m ρ K c _ 13 1 1 (dev17_eq c) rfl rfl) $$ HR H; iintro H
  iapply (send_step m ρ K c _ 12 2 2 (dev18_eq c) rfl rfl) $$ HR H; iintro H
  iapply (send_step m ρ K c _ 11 3 3 (dev19_eq c) rfl rfl) $$ HR H; iintro H
  iapply (send_step m ρ K c _ 10 4 4 (dev20_eq c) rfl rfl) $$ HR H; iintro H
  iapply (send_step m ρ K c _ 9 5 5 (dev21_eq c) rfl rfl) $$ HR H; iintro H
  iapply (send_step m ρ K c _ 8 6 6 (dev22_eq c) rfl rfl) $$ HR H; iintro H
  iapply (send_step m ρ K c _ 7 7 7 (dev23_eq c) rfl rfl) $$ HR H; iintro H
  iapply (send_step m ρ K c _ 6 8 8 (dev24_eq c) rfl rfl) $$ HR H; iintro H
  iapply (send_step m ρ K c _ 5 9 9 (dev25_eq c) rfl rfl) $$ HR H; iintro H
  iapply (send_step m ρ K c _ 4 10 10 (dev26_eq c) rfl rfl) $$ HR H; iintro H
  iapply (send_step m ρ K c _ 3 11 11 (dev27_eq c) rfl rfl) $$ HR H; iintro H
  iapply (send_step m ρ K c _ 2 12 12 (dev28_eq c) rfl rfl) $$ HR H; iintro H
  iapply (send_step m ρ K c _ 1 13 13 (dev29_eq c) rfl rfl) $$ HR H; iintro H
  iapply (send_step m ρ K c _ 0 14 14 (dev30_eq c) rfl rfl) $$ HR H; iintro H
  iapply (load_own_step m ρ c) $$ Hs0; iintro Hs0
  ihave HW := (T2 m ρ c) $$ [H HatL HcrR]
  · unfold recvCreds; iframe
  icases HW with H
  iapply (waitS_step m ρ K c 14 0 15 0 0 rfl rfl (credit_eq 0)) $$ HR H; iintro H
  iapply (waitR_step m ρ K c 14 1 14 0 0 rfl rfl (credit_eq 1)) $$ HR H; iintro H
  iapply (load_slot_step m ρ c 14 1 14 1 0 rfl) $$ H; iintro H
  iapply (waitS_step m ρ K c 13 1 14 1 1 rfl rfl (credit_eq 0)) $$ HR H; iintro H
  iapply (waitR_step m ρ K c 13 2 13 1 1 rfl rfl (credit_eq 2)) $$ HR H; iintro H
  iapply (load_slot_step m ρ c 13 2 13 2 1 rfl) $$ H; iintro H
  iapply (waitS_step m ρ K c 12 2 13 2 2 rfl rfl (credit_eq 0)) $$ HR H; iintro H
  iapply (waitR_step m ρ K c 12 3 12 2 2 rfl rfl (credit_eq 3)) $$ HR H; iintro H
  iapply (load_slot_step m ρ c 12 3 12 3 2 rfl) $$ H; iintro H
  iapply (waitS_step m ρ K c 11 3 12 3 3 rfl rfl (credit_eq 0)) $$ HR H; iintro H
  iapply (waitR_step m ρ K c 11 4 11 3 3 rfl rfl (credit_eq 4)) $$ HR H; iintro H
  iapply (load_slot_step m ρ c 11 4 11 4 3 rfl) $$ H; iintro H
  iapply (waitS_step m ρ K c 10 4 11 4 4 rfl rfl (credit_eq 0)) $$ HR H; iintro H
  iapply (waitR_step m ρ K c 10 5 10 4 4 rfl rfl (credit_eq 5)) $$ HR H; iintro H
  iapply (load_slot_step m ρ c 10 5 10 5 4 rfl) $$ H; iintro H
  iapply (waitS_step m ρ K c 9 5 10 5 5 rfl rfl (credit_eq 0)) $$ HR H; iintro H
  iapply (waitR_step m ρ K c 9 6 9 5 5 rfl rfl (credit_eq 6)) $$ HR H; iintro H
  iapply (load_slot_step m ρ c 9 6 9 6 5 rfl) $$ H; iintro H
  iapply (waitS_step m ρ K c 8 6 9 6 6 rfl rfl (credit_eq 0)) $$ HR H; iintro H
  iapply (waitR_step m ρ K c 8 7 8 6 6 rfl rfl (credit_eq 7)) $$ HR H; iintro H
  iapply (load_slot_step m ρ c 8 7 8 7 6 rfl) $$ H; iintro H
  iapply (waitS_step m ρ K c 7 7 8 7 7 rfl rfl (credit_eq 0)) $$ HR H; iintro H
  iapply (waitR_step m ρ K c 7 8 7 7 7 rfl rfl (credit_eq 8)) $$ HR H; iintro H
  iapply (load_slot_step m ρ c 7 8 7 8 7 rfl) $$ H; iintro H
  iapply (waitS_step m ρ K c 6 8 7 8 8 rfl rfl (credit_eq 0)) $$ HR H; iintro H
  iapply (waitR_step m ρ K c 6 9 6 8 8 rfl rfl (credit_eq 9)) $$ HR H; iintro H
  iapply (load_slot_step m ρ c 6 9 6 9 8 rfl) $$ H; iintro H
  iapply (waitS_step m ρ K c 5 9 6 9 9 rfl rfl (credit_eq 0)) $$ HR H; iintro H
  iapply (waitR_step m ρ K c 5 10 5 9 9 rfl rfl (credit_eq 10)) $$ HR H; iintro H
  iapply (load_slot_step m ρ c 5 10 5 10 9 rfl) $$ H; iintro H
  iapply (waitS_step m ρ K c 4 10 5 10 10 rfl rfl (credit_eq 0)) $$ HR H; iintro H
  iapply (waitR_step m ρ K c 4 11 4 10 10 rfl rfl (credit_eq 11)) $$ HR H; iintro H
  iapply (load_slot_step m ρ c 4 11 4 11 10 rfl) $$ H; iintro H
  iapply (waitS_step m ρ K c 3 11 4 11 11 rfl rfl (credit_eq 0)) $$ HR H; iintro H
  iapply (waitR_step m ρ K c 3 12 3 11 11 rfl rfl (credit_eq 12)) $$ HR H; iintro H
  iapply (load_slot_step m ρ c 3 12 3 12 11 rfl) $$ H; iintro H
  iapply (waitS_step m ρ K c 2 12 3 12 12 rfl rfl (credit_eq 0)) $$ HR H; iintro H
  iapply (waitR_step m ρ K c 2 13 2 12 12 rfl rfl (credit_eq 13)) $$ HR H; iintro H
  iapply (load_slot_step m ρ c 2 13 2 13 12 rfl) $$ H; iintro H
  iapply (waitS_step m ρ K c 1 13 2 13 13 rfl rfl (credit_eq 0)) $$ HR H; iintro H
  iapply (waitR_step m ρ K c 1 14 1 13 13 rfl rfl (credit_eq 14)) $$ HR H; iintro H
  iapply (load_slot_step m ρ c 1 14 1 14 13 rfl) $$ H; iintro H
  iapply (waitS_step m ρ K c 0 14 1 14 14 rfl rfl (credit_eq 0)) $$ HR H; iintro H
  iapply (waitR_step m ρ K c 0 15 0 14 14 rfl rfl (credit_eq 15)) $$ HR H; iintro H
  iapply (load_slot_step m ρ c 0 15 0 15 14 rfl) $$ H; iintro H
  iapply (le_wp_ret _ _ _ _ _)
  ihave HF := (T3 m ρ c (fun f0 fk => scr_join c f0 fk)) $$ [H Hs0]
  · iframe
  icases HF with ⟨HF, HO⟩
  iapply HQ
  isplitr; · ipureintro; exact (outC_eq m ρ c).symm
  iframe

end Cert.Kernel.Proto

end
-- ==== Proof.B_Body.lean ====
import proofs.«900769_g7700000000000770_dist_diff_adaln_cshard_i_b4_s512_c256_v7x_i16_bf16_1_alg».proof.Proof.B_Part28
import proofs.«900769_g7700000000000770_dist_diff_adaln_cshard_i_b4_s512_c256_v7x_i16_bf16_1_alg».proof.Proof.B_Slots

noncomputable section

namespace Cert.Kernel.Proto

open Cert.Kernel Cert.Kernel.Gen Cert.Kernel.Ring

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

abbrev r4 : Rect S4x512x256 := Rect.unit (s := S4x512x256) ![0, 0, 0] S4x512x256.size inb_S4x512x256_S4x512x256_0_0_0

omit [FloatOps F] in
theorem write_out (f w : (cc0_stg4_0 : Ref sig .tc).ty.Contents (Elt F)) :
    ((oM : Memref sig .tc .vmem S4x512x256 .bf16).access r4 : View sig .tc _ _ _).write (Elt F) f w Finset.univ = w :=
  Memref.write_access_unit_zero_univ (Elt F) cc0_stg4_0 hz3 _ f w

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def atEntry (c : Dev nD) : sProp 𝕄 :=
  iprop((dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (tstg m ρ c)
    ∗ stg c cc0_stg2_0 (wsstg m ρ c) ∗ stg c cc0_stg3_0 (whstg m ρ c) ∗ stg c cc0_stg4_0 (outC m ρ c))

set_option maxHeartbeats 1600000 in
theorem sound_body (c : Dev nD) (Kt : PUnit → sProp 𝕄) :
    iprop(((ghost m ρ K c ∗ creds (F := F) c ∗ levAts L lv ∗ scrAny (F := F) c) ∗ atEntry m ρ c) ∗ (bodyPost m ρ c -∗ Kt ⟨⟩))
      ⊢ wp frame (wpE (defs₀ (F := F)) 𝒱₀ (c : Thread nD τ) none) Set.univ (cc0_body xM (Memref.isWhole_whole _) tM (Memref.isWhole_whole _) wsM (Memref.isWhole_whole _) whM (Memref.isWhole_whole _) oM (Memref.isWhole_whole _) cM (Memref.isWhole_whole _) cc0_scratch1 cc0_scratch2) Kt := by
  rw [cc0_body_eq_skeleton]; unfold cc0_body_skel
  simp only [Prog.lift, Prog.pure_eq_ret]
  unfold atEntry ghost
  iintro ⟨⟨⟨⟨#HR, Hlin⟩, Hcr, #Hlev, Hscr⟩, Ho, ⟨%d0, %g0, %hg0, Hx⟩, ⟨%d1, %g1, %hg1, Ht⟩, ⟨%d2, %g2, %hg2, Hws⟩, ⟨%d3, %g3, %hg3, Hwh⟩, ⟨%d4, %g4, %hg4, Hout⟩⟩, Hk⟩
  have hx : g0 = xstg m ρ c := by rw [hg0]; unfold Dat.before; rw [if_pos (fetch0_0 t₀)]; rfl
  have ht : g1 = tstg m ρ c := by rw [hg1]; unfold Dat.before; rw [if_pos (fetch0_1 t₀)]; rfl
  have hws : g2 = wsstg m ρ c := by rw [hg2]; unfold Dat.before; rw [if_pos (fetch0_2 t₀)]; rfl
  have hwh : g3 = whstg m ρ c := by rw [hg3]; unfold Dat.before; rw [if_pos (fetch0_3 t₀)]; rfl
  subst hx ht hws hwh
  unfold Dat.owesAt Pipeline.owesWithin
  icases Ho with ⟨%W, %hW, HO⟩
  rw [show (dats m ρ 0 c).owed t₀.castSucc = O₀ c from rfl]
  ihave H0 := (T0 (F := F) c (fun f => (scr_split c f).1)) $$ [Hlin Hscr HO]
  · iframe Hlin Hscr; unfold owesAny; iexists W; iexact HO
  icases H0 with ⟨HS, Hs0, HatB, HatL, Htok⟩
  rw [wp_bind]
  iapply (part28 m ρ K c)
  isplitr; · iexact HR
  isplitl [HS Hs0 HatB HatL Htok Hcr Hx Ht Hws Hwh]
  · unfold inPts; iframe Hlev ∗
  iintro %out ⟨%hf, HF, HO, Hin⟩
  subst hf
  unfold inPts
  icases Hin with ⟨Hx, Ht, Hws, Hwh⟩
  iapply (wp_load 𝒱₀ (c : Thread nD τ) none Set.univ (m := oM) (Finset.subset_univ _)) $$ Hout; iintro Hout
  iapply (wp_store 𝒱₀ (c : Thread nD τ) none Set.univ (m := oM) (r := r4) (Mk := Finset.univ) (Finset.subset_univ _)) $$ Hout; iintro Hout
  rw [write_out]
  iapply (le_wp_ret _ _ _ _ _)
  iapply Hk
  unfold bodyPost Dat.owesAt Pipeline.owesWithin owesAny
  rw [show (dats m ρ 0 c).owed t₀.succ = 0 from rfl]
  isplitl [HF]; · iexact HF
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  isplitl [Hws]
  · iexists _; isplitr; · (ipureintro; rfl)
    iexact Hws
  isplitl [Hwh]
  · iexists _; isplitr; · (ipureintro; rfl)
    iexact Hwh
  iexists _; isplitr; · (ipureintro; rfl)
  iexact Hout

end Cert.Kernel.Proto

namespace Cert.Kernel.Proto

open Cert.Kernel Cert.Kernel.Gen Cert.Kernel.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

set_option maxRecDepth 65536 in
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show iprop(Φ₀ m ρ c ∗ atEntry m ρ c) ⊢ wp frame (wpE (defs₀ (F := F)) 𝒱₀ (c : Thread nD τ) none) Set.univ
    (cc0_body xM (Memref.isWhole_whole _) tM (Memref.isWhole_whole _) wsM (Memref.isWhole_whole _) whM (Memref.isWhole_whole _) oM (Memref.isWhole_whole _) cM (Memref.isWhole_whole _) cc0_scratch1 cc0_scratch2) (fun _ => bodyPost m ρ c)
  unfold Φ₀ start
  iintro ⟨⟨⟨⟨%K, Hg⟩, Hcr, Hlev⟩, Hscr⟩, Hst⟩
  iapply (sound_body m ρ K c fun _ => bodyPost m ρ c)
  isplitr []
  · iframe
  · iintro H; iexact H

end Cert.Kernel.Proto

end
-- ==== Proof.lean ====
import proofs.«900769_g7700000000000770_dist_diff_adaln_cshard_i_b4_s512_c256_v7x_i16_bf16_1_alg».proof.Defs
import proofs.«900769_g7700000000000770_dist_diff_adaln_cshard_i_b4_s512_c256_v7x_i16_bf16_1_alg».proof.Proof.Gen.Kernel
import proofs.«900769_g7700000000000770_dist_diff_adaln_cshard_i_b4_s512_c256_v7x_i16_bf16_1_alg».proof.Proof.Gen.KernelIdeal
import proofs.«900769_g7700000000000770_dist_diff_adaln_cshard_i_b4_s512_c256_v7x_i16_bf16_1_alg».proof.Proof.Gen.ReferenceIdeal
import proofs.«900769_g7700000000000770_dist_diff_adaln_cshard_i_b4_s512_c256_v7x_i16_bf16_1_alg».proof.Proof.Gen.Pre_finite_inputs_Kernel
import proofs.«900769_g7700000000000770_dist_diff_adaln_cshard_i_b4_s512_c256_v7x_i16_bf16_1_alg».proof.Proof.Gen.Pre_finite_inputs_ReferenceIdeal
import proofs.«900769_g7700000000000770_dist_diff_adaln_cshard_i_b4_s512_c256_v7x_i16_bf16_1_alg».proof.Proof.RefRun
import proofs.«900769_g7700000000000770_dist_diff_adaln_cshard_i_b4_s512_c256_v7x_i16_bf16_1_alg».proof.Proof.Alg
import proofs.«900769_g7700000000000770_dist_diff_adaln_cshard_i_b4_s512_c256_v7x_i16_bf16_1_alg».proof.Proof.Launch
import proofs.«900769_g7700000000000770_dist_diff_adaln_cshard_i_b4_s512_c256_v7x_i16_bf16_1_alg».proof.Proof.Body
import proofs.«900769_g7700000000000770_dist_diff_adaln_cshard_i_b4_s512_c256_v7x_i16_bf16_1_alg».proof.Proof.B_Launch
import proofs.«900769_g7700000000000770_dist_diff_adaln_cshard_i_b4_s512_c256_v7x_i16_bf16_1_alg».proof.Proof.B_Body

noncomputable section

namespace Cert.Proof

open Idealize.ShloMosaic Idealize.SL.Sem

theorem ki_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = Cert.KernelIdeal.Proto.outC (F := Ideal) m g c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono
    (fun r h c => ⟨(h c 4).trans (Cert.KernelIdeal.Proto.finalA_out m g c), (h c 0).trans (Cert.KernelIdeal.Proto.finalA_in m g c 0 rfl),
      (h c 1).trans (Cert.KernelIdeal.Proto.finalA_in m g c 1 rfl), (h c 2).trans (Cert.KernelIdeal.Proto.finalA_in m g c 2 rfl),
      (h c 3).trans (Cert.KernelIdeal.Proto.finalA_in m g c 3 rfl)⟩)
    (Cert.KernelIdeal.Proto.run_main (F := Ideal) m g (Cert.KernelIdeal.Proto.body_obligation m g))

theorem frame_k : Cert.frame_Kernel := fun m g _ =>
  (θ_run (Cert.Kernel.defs (F := Bits)) _ _).mono
    (fun r h c => ⟨(h c 0).trans (Cert.Kernel.Proto.finalA_in m g c 0 rfl), (h c 1).trans (Cert.Kernel.Proto.finalA_in m g c 1 rfl),
      (h c 2).trans (Cert.Kernel.Proto.finalA_in m g c 2 rfl), (h c 3).trans (Cert.Kernel.Proto.finalA_in m g c 3 rfl)⟩)
    (Cert.Kernel.Proto.run_main (F := Bits) m g (Cert.Kernel.Proto.body_obligation m g))

theorem frame_ki : Cert.frame_KernelIdeal := fun m g _ =>
  (θ_run (Cert.KernelIdeal.defs (F := Ideal)) _ _).mono (fun _ h c => (h c).2) (ki_run m g)

theorem frame_ri : Cert.frame_ReferenceIdeal := fun m g _ =>
  (θ_run (Cert.ReferenceIdeal.defs (F := Ideal)) _ _).mono (fun _ h c => (h c).2) (Cert.RefSide.ref_run m g)

theorem preserves : Cert.preserves_Kernel_KernelIdeal := trivial

theorem algebraic : Cert.algebraic_KernelIdeal_ReferenceIdeal := by
  intro m g m' g' hpre hagree
  refine ⟨Cert.RefSide.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)), ?_, ?_⟩
  · exact (θ_run (Cert.KernelIdeal.defs (F := Ideal)) _ _).mono
      (fun r h c => ⟨(h c).1.trans (Cert.KernelIdeal.AlgV.out_is_block m g m' hpre hagree c), (h c).2⟩) (ki_run m g)
  · exact (θ_run (Cert.ReferenceIdeal.defs (F := Ideal)) _ _).mono (fun r h => h 0) (Cert.RefSide.ref_run m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
